-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64 .f32) (main_arg17 : FVec F S64x2 .f32) (main_arg18 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg17
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S64 .f32) (main_arg14 : FVec F S64 .f32) (main_arg15 : FVec F S64 .f32) (main_arg16 : FVec F S64 .f32) (main_arg17 : FVec F S64x2 .f32) (main_arg18 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_v63 main_v67

def fn_part2 {F : FTy → Type} [FloatOps F] (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x2 .f32) (main_arg18 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_v48 main_v49 main_v50

def fn_part1 {F : FTy → Type} [FloatOps F] (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x2 .f32) (main_arg18 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x64 .f32) (main_arg1 : IVec S2x800000 32) (main_arg2 : FVec F S800000 .f32) (main_arg3 : IVec S50000 32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64x2 .f32) (main_arg18 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S50000x1 : Shape := ⟨2, ![50000, 1]⟩
abbrev S256 : Shape := ⟨1, ![256]⟩
abbrev S256x1 : Shape := ⟨2, ![256, 1]⟩
abbrev S1x2 : Shape := ⟨2, ![1, 2]⟩
abbrev S256x2 : Shape := ⟨2, ![256, 2]⟩
abbrev S5000x1 : Shape := ⟨2, ![5000, 1]⟩
abbrev S256x64 : Shape := ⟨2, ![256, 64]⟩
abbrev S5000x256 : Shape := ⟨2, ![5000, 256]⟩

abbrev nBuf : Space → Nat
  | .hbm => 159
  | .vmem => 52
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x2, .f32⟩
  | 18 => ⟨S2, .f32⟩
  | 19 => ⟨S1x800000, .i32⟩
  | 20 => ⟨S800000, .i32⟩
  | 21 => ⟨S1x800000, .i32⟩
  | 22 => ⟨S800000, .i32⟩
  | 23 => ⟨S50000x64, .bf16⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .bf16⟩
  | 33 => ⟨S800000x64, .f32⟩
  | 34 => ⟨S800000x1, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S1x64, .f32⟩
  | 42 => ⟨S50000x64, .f32⟩
  | 43 => ⟨S_, .f32⟩
  | 44 => ⟨S64, .f32⟩
  | 45 => ⟨S_, .f32⟩
  | 46 => ⟨S64, .f32⟩
  | 47 => ⟨S64, .f32⟩
  | 48 => ⟨S_, .i32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S50000x64, .f32⟩
  | 56 => ⟨S50000x64, .f32⟩
  | 57 => ⟨S50000x64, .f32⟩
  | 58 => ⟨S_, .f32⟩
  | 59 => ⟨S_, .f32⟩
  | 60 => ⟨S_, .f32⟩
  | 61 => ⟨S_, .f32⟩
  | 62 => ⟨S64, .f32⟩
  | 63 => ⟨S64, .f32⟩
  | 64 => ⟨S64, .f32⟩
  | 65 => ⟨S_, .f32⟩
  | 66 => ⟨S_, .i1⟩
  | 67 => ⟨S_, .f32⟩
  | 68 => ⟨S_, .f32⟩
  | 69 => ⟨S64, .f32⟩
  | 70 => ⟨S64, .f32⟩
  | 71 => ⟨S1x64, .f32⟩
  | 72 => ⟨S1x64, .f32⟩
  | 73 => ⟨S1x64, .f32⟩
  | 74 => ⟨S1x64, .f32⟩
  | 75 => ⟨S50000x64, .f32⟩
  | 76 => ⟨S50000x64, .bf16⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .bf16⟩
  | 86 => ⟨S800000x64, .f32⟩
  | 87 => ⟨S800000x1, .f32⟩
  | 88 => ⟨S800000x64, .f32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S1x64, .f32⟩
  | 95 => ⟨S50000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S1x64, .f32⟩
  | 126 => ⟨S1x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .bf16⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x64, .bf16⟩
  | 11 => ⟨S800000x64, .f32⟩
  | 12 => ⟨S800000x1, .f32⟩
  | 13 => ⟨S800000x64, .f32⟩
  | 14 => ⟨S800000x64, .f32⟩
  | 15 => ⟨S_, .f32⟩
  | 16 => ⟨S50000x64, .f32⟩
  | 17 => ⟨S800000x1, .i32⟩
  | 18 => ⟨S50000x64, .f32⟩
  | 19 => ⟨S1x64, .f32⟩
  | 20 => ⟨S50000x64, .f32⟩
  | 21 => ⟨S50000x1, .i32⟩
  | 22 => ⟨S_, .f32⟩
  | 23 => ⟨S50000, .f32⟩
  | 24 => ⟨S_, .f32⟩
  | 25 => ⟨S256, .f32⟩
  | 26 => ⟨S50000x1, .i32⟩
  | 27 => ⟨S256, .f32⟩
  | 28 => ⟨S256x1, .f32⟩
  | 29 => ⟨S1x2, .f32⟩
  | 30 => ⟨S256x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S64x64, .f32⟩
  | .local _ .vmem, ⟨40, _⟩ => ⟨S1x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x1, .i32⟩
  | .local _ .vmem, ⟨46, _⟩ => ⟨S5000x1, .i32⟩
  | .local _ .vmem, ⟨47, _⟩ => ⟨S256x1, .f32⟩
  | .local _ .vmem, ⟨48, _⟩ => ⟨S64x2, .f32⟩
  | .local _ .vmem, ⟨49, _⟩ => ⟨S1x2, .f32⟩
  | .local _ .vmem, ⟨50, _⟩ => ⟨S256x2, .f32⟩
  | .local _ .vmem, ⟨51, _⟩ => ⟨S256x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_4 : Ref sig .tc := ⟨.hbm, 77, rfl⟩
abbrev main_v31 : Ref sig .tc := ⟨.hbm, 78, rfl⟩
abbrev main_v32 : Ref sig .tc := ⟨.hbm, 79, rfl⟩
abbrev main_c_5 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_6 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_7 : Ref sig .tc := ⟨.hbm, 96, rfl⟩
abbrev main_v47 : Ref sig .tc := ⟨.hbm, 97, rfl⟩
abbrev main_cst_8 : Ref sig .tc := ⟨.hbm, 98, rfl⟩
abbrev main_v48 : Ref sig .tc := ⟨.hbm, 99, rfl⟩
abbrev main_v49 : Ref sig .tc := ⟨.hbm, 100, rfl⟩
abbrev main_c_9 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_cst_3 : Ref sig .tc := ⟨.hbm, 118, rfl⟩
abbrev main_call1_v12 : Ref sig .tc := ⟨.hbm, 119, rfl⟩
abbrev main_call1_cst_4 : Ref sig .tc := ⟨.hbm, 120, rfl⟩
abbrev main_call1_call0_v0 : Ref sig .tc := ⟨.hbm, 121, rfl⟩
abbrev main_call1_call0_v1 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_c_10 : Ref sig .tc := ⟨.hbm, 130, rfl⟩
abbrev main_v57 : Ref sig .tc := ⟨.hbm, 131, rfl⟩
abbrev main_v58 : Ref sig .tc := ⟨.hbm, 132, rfl⟩
abbrev main_c_11 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_cst_12 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_cst_13 : Ref sig .tc := ⟨.hbm, 150, rfl⟩
abbrev main_v74 : Ref sig .tc := ⟨.hbm, 151, rfl⟩
abbrev main_cst_14 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem4_0 : DmaSem sig := 49
abbrev cc5_sem5_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  shapeCasts_S50000_S50000x1 : S50000.ShapeCasts S50000x1
  bcast_S_S50000 : S_.BroadcastsInDim S50000 (![] : Fin 0 → Fin S50000.rank)
  bcast_S_S256 : S_.BroadcastsInDim S256 (![] : Fin 0 → Fin S256.rank)
  bcast_S50000_S50000x1_0 : S50000.BroadcastsInDim S50000x1 (![0] : Fin 1 → Fin S50000x1.rank)
  shapeCasts_S256_S256x1 : S256.ShapeCasts S256x1
  shapeCasts_S2_S1x2 : S2.ShapeCasts S1x2
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x64 : S256x1.Broadcasts S256x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S256_S50000x1_S50000_n_0_0_1_wf : ScatterDims.WF S256 S50000x1 S50000 [] [0] [0] 1
  dot_S5000x256_S5000x64_S256x64_0_0_1_1_n_n_wf : DotDims.WF S5000x256 S5000x64 S256x64 [0] [0] [1] [1] [] []
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .i32 = 32 ∨ (Rect.block (s := S50000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x1.size a ≤ S256x1.size a
  hwx5_2 : ∀ i : grid5.Coords, EltTy.bits .f32 = 32 ∨ (Rect.block (s := S256x1) S256x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x2.size a ≤ S64x2.size a
  hwx5_3 : ∀ i : grid5.Coords, EltTy.bits .f32 = 32 ∨ (Rect.block (s := S64x2) S64x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x2.size a ≤ S256x2.size a
  hwx5_5 : ∀ i : grid5.Coords, EltTy.bits .f32 = 32 ∨ (Rect.block (s := S256x2) S256x2.size (cc5_transform_5 i) (hinb5_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v72) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v78) S256x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S64x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S256x2.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S256x64 : Shape := ⟨2, ![256, 64]⟩
abbrev S50000x1 : Shape := ⟨2, ![50000, 1]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 211
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64x2, .f32⟩
  | 18 => ⟨S2, .f32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S800000x1, .f32⟩
  | 31 => ⟨S800000x64, .f32⟩
  | 32 => ⟨S800000x64, .f32⟩
  | 33 => ⟨S1x800000, .i32⟩
  | 34 => ⟨S800000, .i32⟩
  | 35 => ⟨S_, .f32⟩
  | 36 => ⟨S50000x64, .f32⟩
  | 37 => ⟨S800000x1, .i32⟩
  | 38 => ⟨S50000x64, .f32⟩
  | 39 => ⟨S50000x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S50000x64, .f32⟩
  | 58 => ⟨S50000x64, .f32⟩
  | 59 => ⟨S50000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S_, .f32⟩
  | 80 => ⟨S64, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S1x800000, .i32⟩
  | 93 => ⟨S800000, .i32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x1, .f32⟩
  | 104 => ⟨S800000x64, .f32⟩
  | 105 => ⟨S800000x64, .f32⟩
  | 106 => ⟨S1x800000, .i32⟩
  | 107 => ⟨S800000, .i32⟩
  | 108 => ⟨S_, .f32⟩
  | 109 => ⟨S50000x64, .f32⟩
  | 110 => ⟨S800000x1, .i32⟩
  | 111 => ⟨S50000x64, .f32⟩
  | 112 => ⟨S50000x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S_, .f32⟩
  | 119 => ⟨S64, .f32⟩
  | 120 => ⟨S_, .f32⟩
  | 121 => ⟨S64, .f32⟩
  | 122 => ⟨S64, .f32⟩
  | 123 => ⟨S_, .i32⟩
  | 124 => ⟨S_, .f32⟩
  | 125 => ⟨S64, .f32⟩
  | 126 => ⟨S1x64, .f32⟩
  | 127 => ⟨S_, .f32⟩
  | _ => ⟨S50000x64, .f32⟩

abbrev hbmTy0_1 (i : Nat) : BufTy := match i % 128 with
  | 0 => ⟨S1x64, .f32⟩
  | 1 => ⟨S1x64, .f32⟩
  | 2 => ⟨S50000x64, .f32⟩
  | 3 => ⟨S50000x64, .f32⟩
  | 4 => ⟨S50000x64, .f32⟩
  | 5 => ⟨S_, .f32⟩
  | 6 => ⟨S_, .f32⟩
  | 7 => ⟨S_, .f32⟩
  | 8 => ⟨S_, .f32⟩
  | 9 => ⟨S64, .f32⟩
  | 10 => ⟨S64, .f32⟩
  | 11 => ⟨S64, .f32⟩
  | 12 => ⟨S_, .f32⟩
  | 13 => ⟨S_, .i1⟩
  | 14 => ⟨S_, .f32⟩
  | 15 => ⟨S_, .f32⟩
  | 16 => ⟨S64, .f32⟩
  | 17 => ⟨S64, .f32⟩
  | 18 => ⟨S1x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S_, .f32⟩
  | 25 => ⟨S64, .f32⟩
  | 26 => ⟨S64, .f32⟩
  | 27 => ⟨S64, .f32⟩
  | 28 => ⟨S1x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S1x800000, .i32⟩
  | 38 => ⟨S800000, .i32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x1, .f32⟩
  | 49 => ⟨S800000x64, .f32⟩
  | 50 => ⟨S800000x64, .f32⟩
  | 51 => ⟨S1x800000, .i32⟩
  | 52 => ⟨S800000, .i32⟩
  | 53 => ⟨S_, .f32⟩
  | 54 => ⟨S50000x64, .f32⟩
  | 55 => ⟨S800000x1, .i32⟩
  | 56 => ⟨S50000x64, .f32⟩
  | 57 => ⟨S50000x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S256x64, .f32⟩
  | 65 => ⟨S50000x1, .i32⟩
  | 66 => ⟨S256x64, .f32⟩
  | 67 => ⟨S_, .f32⟩
  | 68 => ⟨S50000, .f32⟩
  | 69 => ⟨S_, .f32⟩
  | 70 => ⟨S256, .f32⟩
  | 71 => ⟨S50000x1, .i32⟩
  | 72 => ⟨S256, .f32⟩
  | 73 => ⟨S_, .f32⟩
  | 74 => ⟨S256, .f32⟩
  | 75 => ⟨S256, .f32⟩
  | 76 => ⟨S256x1, .f32⟩
  | 77 => ⟨S256x64, .f32⟩
  | 78 => ⟨S256x64, .f32⟩
  | 79 => ⟨S256x2, .f32⟩
  | 80 => ⟨S1x2, .f32⟩
  | 81 => ⟨S256x2, .f32⟩
  | 82 => ⟨S256x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_cst_3 : Ref sig .tc := ⟨.hbm, 67, rfl⟩
abbrev main_call0_v12 : Ref sig .tc := ⟨.hbm, 68, rfl⟩
abbrev main_call0_cst_4 : Ref sig .tc := ⟨.hbm, 69, rfl⟩
abbrev main_call0_call0_v0 : Ref sig .tc := ⟨.hbm, 70, rfl⟩
abbrev main_call0_call0_v1 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_call1_cst : Ref sig .tc := ⟨.hbm, 89, rfl⟩
abbrev main_call1_v0 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_c_5 : Ref sig .tc := ⟨.hbm, 94, rfl⟩
abbrev main_v45 : Ref sig .tc := ⟨.hbm, 95, rfl⟩
abbrev main_v46 : Ref sig .tc := ⟨.hbm, 96, rfl⟩
abbrev main_c_6 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_7 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_8 : Ref sig .tc := ⟨.hbm, 118, rfl⟩
abbrev main_v66 : Ref sig .tc := ⟨.hbm, 119, rfl⟩
abbrev main_cst_9 : Ref sig .tc := ⟨.hbm, 120, rfl⟩
abbrev main_v67 : Ref sig .tc := ⟨.hbm, 121, rfl⟩
abbrev main_v68 : Ref sig .tc := ⟨.hbm, 122, rfl⟩
abbrev main_c_10 : Ref sig .tc := ⟨.hbm, 123, rfl⟩
abbrev main_call2_cst : Ref sig .tc := ⟨.hbm, 124, rfl⟩
abbrev main_call2_v0 : Ref sig .tc := ⟨.hbm, 125, rfl⟩
abbrev main_call2_v1 : Ref sig .tc := ⟨.hbm, 126, rfl⟩
abbrev main_call2_cst_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_v7 : Ref sig .tc := ⟨.hbm, 133, rfl⟩
abbrev main_call2_cst_1 : Ref sig .tc := ⟨.hbm, 134, rfl⟩
abbrev main_call2_v8 : Ref sig .tc := ⟨.hbm, 135, rfl⟩
abbrev main_call2_cst_2 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_cst_3 : Ref sig .tc := ⟨.hbm, 140, rfl⟩
abbrev main_call2_v12 : Ref sig .tc := ⟨.hbm, 141, rfl⟩
abbrev main_call2_cst_4 : Ref sig .tc := ⟨.hbm, 142, rfl⟩
abbrev main_call2_call0_v0 : Ref sig .tc := ⟨.hbm, 143, rfl⟩
abbrev main_call2_call0_v1 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_cst_11 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_call3_cst : Ref sig .tc := ⟨.hbm, 162, rfl⟩
abbrev main_call3_v0 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_c_12 : Ref sig .tc := ⟨.hbm, 167, rfl⟩
abbrev main_v88 : Ref sig .tc := ⟨.hbm, 168, rfl⟩
abbrev main_v89 : Ref sig .tc := ⟨.hbm, 169, rfl⟩
abbrev main_c_13 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_cst_14 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_cst_15 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_cst_16 : Ref sig .tc := ⟨.hbm, 195, rfl⟩
abbrev main_v112 : Ref sig .tc := ⟨.hbm, 196, rfl⟩
abbrev main_cst_17 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_18 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  slices_S2x800000_S1x800000_1_0 : S2x800000.Slices ![1, 0] S1x800000
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x2_S256x2_1_0_0_1_n_n_wf : DotDims.WF S256x64 S64x2 S256x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.LibExit.lean ====
import Idealize.ShloMosaic.Lib.Pipeline.Value
import Idealize.ShloMosaic.Lib.Pipeline.Kit
import Idealize.ShloMosaic.Lib.StableHlo.Run

noncomputable section

namespace Cert

open Idealize.ShloMosaic Idealize.ShloMosaic.TcCoe
open Idealize.SL Idealize.SL.Sem
open Idealize.ShloMosaic.Pipeline (Dat)

variable {nD : Nat} {τ : Topo} {sig : RefSig} {Λ₀ : Labels} {F : FTy → Type} [FloatOps F]

abbrev atRefs (W : Dev nD → Valuation τ sig (Elt F)) : (c : Dev nD) → (b : Ref sig .tc) → Buf (Elt F) ((c : Thread nD τ).loc b) :=
  fun c b => W c b

theorem arrAt_of_never_flushed {cfg : Pipeline.Cfg sig Λ₀} {c : Dev nD}
    (dat : Dat τ (Elt F) Unit ℕ (UR sig nD τ) ℕ cfg c) (w : Fin cfg.W)
    (hnf : ∀ t : Fin cfg.N, (cfg.win w).flush t = false) (n : ℕ) : dat.arrAt w n = dat.A w :=
  funext fun i => dat.arrAt_apply_of_forall_not_mem w n i fun t _ hf => by rw [hnf t] at hf; exact absurd hf (by decide)

variable (W : Dev nD → Valuation τ sig (Elt F)) (c : Dev nD)

abbrev leftAt (r : Ref sig .tc) (x : Buf (Elt F) ((c : Thread nD τ).loc r)) : Valuation τ sig (Elt F) :=
  Function.update (W c) r x

theorem leftAt_same (r : Ref sig .tc) (x : Buf (Elt F) ((c : Thread nD τ).loc r)) :
    (leftAt W c r x) r = x := by
  simp only [leftAt, Function.update_self]

theorem leftAt_of_ne (r b : Ref sig .tc) (x : Buf (Elt F) ((c : Thread nD τ).loc r)) (h : b ≠ r) :
    (leftAt W c r x) b = W c b := by
  simp only [leftAt, Function.update_of_ne (StableHlo.devRef_ne_of_ne h : (Proc.devRef .tc b : DevRef τ sig) ≠ Proc.devRef .tc r)]

variable {cfg : Pipeline.Cfg sig Λ₀} (dats : (c : Dev nD) → Dat τ (Elt F) Unit ℕ (UR sig nD τ) ℕ cfg c) (wout : Fin cfg.W)

abbrev exitVal : Dev nD → Valuation τ sig (Elt F) := fun c =>
  leftAt W c (Pipeline.arrRef cfg.spec wout) ((dats c).arrAt wout cfg.N)

-- The replaced array is there by definition; every other array is unchanged and is another reference.
theorem exit_arrays (hA : ∀ w, (dats c).A w = atRefs W c (Pipeline.arrRef cfg.spec w))
    (hnf : ∀ w, w ≠ wout → ∀ t : Fin cfg.N, (cfg.win w).flush t = false)
    (hne : ∀ w, w ≠ wout → Pipeline.arrRef cfg.spec w ≠ Pipeline.arrRef cfg.spec wout) (w : Fin cfg.W) :
    (dats c).arrAt w cfg.N = atRefs (exitVal W dats wout) c (Pipeline.arrRef cfg.spec w) := by
  by_cases hw : w = wout
  · subst hw; exact (leftAt_same W c _ _).symm
  · exact ((arrAt_of_never_flushed (dats c) w (hnf w hw) cfg.N).trans (hA w)).trans
      (leftAt_of_ne W c (Pipeline.arrRef cfg.spec wout) (Pipeline.arrRef cfg.spec w) _ (hne w hw)).symm

theorem exit_rest (b : Ref sig .tc) (hb : b ∉ Finset.univ.image (Pipeline.arrRef cfg.spec)) :
    atRefs (exitVal W dats wout) c b = atRefs W c b :=
  leftAt_of_ne W c (Pipeline.arrRef cfg.spec wout) b _
    fun e => hb (Finset.mem_image.mpr ⟨wout, Finset.mem_univ _, e.symm⟩)

end Cert

end
-- ==== Proof.LibRegion.lean ====
import proofs.«401110_j833223655738_3_alg».proof.Proof.LibExit
import Idealize.ShloMosaic.Lib.Pipeline.Regions
import Idealize.ShloMosaic.Lib.Pipeline.RegionsLoop
import Idealize.ShloMosaic.Lib.Pipeline.Frame

set_option maxRecDepth 16384

noncomputable section

namespace Cert

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {nD : Nat} {τ : Topo} {sig : RefSig} {Λ₀ : Labels} {F : FTy → Type} [FloatOps F]

local notation "𝕄" => MT nD τ sig Unit (Elt F) ℕ (UR sig nD τ) ℕ

abbrev noVar : Variants := Variants.none
abbrev noLev : GSem nD τ sig → Finset Unit := fun _ => ∅
abbrev lev0 : GSem nD τ sig → Unit → ℕ := fun _ _ => 0

abbrev Rest (c : Dev nD) : sProp 𝕄 :=
  iprop((∃ r, prngReg c r) ∗ ∃ W, owes (c : Thread nD τ) (0 : CellTallies nD τ sig Unit) W)

variable (cfgs : Fin 6 → Pipeline.Cfg sig Λ₀) (defs₀ : Defs nD τ sig (Elt F) Λ₀)

abbrev pcfgsOf : Fin 6 → Pipeline.PCfg sig Λ₀ (Elt F) := fun p => (cfgs p).toPCfg
abbrev admOf : (p : Fin 6) → (pcfgsOf (F := F) cfgs p).Adm := fun p => (cfgs p).toPCfg_adm

variable (pdats : (p : Fin 6) → (c : Dev nD) → Dat τ (Elt F) Unit ℕ (UR sig nD τ) ℕ (cfgs p) c)

set_option backward.isDefEq.respectTransparency.types false in

-- A region that owns nothing beyond its windows' arrays, as one step of the run between two valuations W and W'.
def regOf (p : Fin 6) (lf : Pipeline.LaunchFacts (nD := nD) (τ := τ) cfgs p) (W W' : Dev nD → Valuation τ sig (Elt F))
    (hbody : ∀ c, Pipeline.BodyObligationLoose (pdats p c) defs₀ noVar () Set.univ)
    (howed : ∀ c t, (pdats p c).owed t = 0)
    (hrec : ∀ c t, (pdats p c).recorded t = Set.univ)
    (hshare : ∀ c w, (pdats p c).share w = fullShare)
    (hA : ∀ c w, (pdats p c).A w = atRefs W c (Pipeline.arrRef (cfgs p).spec w))
    (hΦin : ∀ c, (Pipeline.ΦA (cfgs p).spec c : sProp 𝕄) ⊢ (pdats p c).Φ 0)
    (hΦout : ∀ c, (pdats p c).Φ (Fin.last (cfgs p).N) ⊢ (Pipeline.ΦA (cfgs p).spec c : sProp 𝕄))
    (hF : ∀ c w, (pdats p c).arrAt w (cfgs p).N = atRefs W' c (Pipeline.arrRef (cfgs p).spec w))
    (hrest : ∀ c, ∀ b, b ∉ Finset.univ.image (Pipeline.arrRef (cfgs p).spec) → atRefs W' c b = atRefs W c b) :
    RegionSeg (pcfgsOf (F := F) cfgs) (admOf cfgs) pdats () defs₀ noVar noLev lev0 p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ noLev lev0 p howed
  pre c := iprop(StableHlo.held (c : Thread nD τ) (Pipeline.ucRefs τ sig) (W c) ∗ Rest c)
  post c := iprop(StableHlo.held (c : Thread nD τ) (Pipeline.ucRefs τ sig) (W' c) ∗ Rest c)
  X c := iprop(∃ r, prngReg c r)
  Y c := iprop(∃ r, prngReg c r)
  Z c := Pipeline.unscopedRest (Ix := Unit) (Name := ℕ) (U := UR sig nD τ) (Lvl := ℕ) (cfgs p).spec c (atRefs W c)
  hentry c := by

    rw [Pipeline.ownSems0_none]
    have hsplit := Pipeline.arrays_of_unscopedBufs (p := p) (pcfgsOf (F := F) cfgs) (admOf cfgs) pdats lf.win lf.arr_whole c
      (hshare c) (atRefs W c) (hA c)
    rw [Pipeline.unscopedBufs_held] at hsplit
    iintro ⟨⟨Hheld, Hprng, Howes⟩, -, -⟩
    ihave Hparts := hsplit $$ Hheld
    icases Hparts with ⟨Harr, Hbypass⟩
    imodintro
    isplitl [Harr]; · iexact Harr
    isplitr
    ·
      unfold Pipeline.prefHeld
      rw [show (Finset.univ : Finset (Fin 0)) = ∅ from rfl, BI.bigSep_empty]; iempintro
    isplitl [Howes]
    · unfold Pipeline.Dat.owesAt Pipeline.owesWithin
      rw [howed c 0]
      icases Howes with ⟨%T, Howes⟩; iexists T; isplitr
      · ipureintro; exact fun x _ => Or.inl (by rw [hrec c 0]; exact Set.mem_univ x)
      iexact Howes
    isplitl [Hprng]; · iexact Hprng
    iexact Hbypass
  hin c := by
    refine .trans ?_ (hΦin c)
    unfold Pipeline.ΦA
    iintro ⟨Hprng, -, Hscoped⟩
    isplitl [Hscoped]; · iexact Hscoped
    iexact Hprng
  hout c := by
    rw [Pipeline.ownSems0_none]
    refine (hΦout c).trans ?_
    unfold Pipeline.ΦA
    iintro ⟨Hscoped, Hprng⟩
    isplitl [Hprng]; · iexact Hprng
    isplitr; · iempintro
    iexact Hscoped
  hexit c := by

    have hjoin := Pipeline.unscopedBufs_of_arrays (p := p) (pcfgsOf (F := F) cfgs) (admOf cfgs) (Ix := Unit) (Name := ℕ) (U := UR sig nD τ) (Lvl := ℕ)
      lf.win lf.arr_whole c pdats (hshare c)
      (atRefs W c) (atRefs W' c) ((pdats p c).arrAt · (cfgs p).N) (hF c) (hrest c)
    rw [Pipeline.unscopedBufs_held] at hjoin
    iintro ⟨Harr, Howes, Hprng, Hbypass⟩
    imodintro
    isplitl [Harr Hbypass]
    · iapply hjoin; isplitl [Harr] <;> iassumption
    isplitl [Hprng]; · iexact Hprng
    unfold Pipeline.Dat.owesAt Pipeline.owesWithin
    rw [howed c (Fin.last _)]
    icases Howes with ⟨%T, -, Howes⟩; iexists T; iexact Howes

end Cert

end
-- ==== Proof.K.Outs.lean ====
import proofs.«401110_j833223655738_3_alg».proof.Proof.Gen.Kernel.Regions

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

abbrev Res (F : FTy → Type) (r : Ref sig .tc) : Type := (c : Dev nD) → Buf (Elt F) ((c : Thread nD τ).loc r)

abbrev atLaunch (r : Ref sig .tc) : Res F r := fun c => m ((c : Thread nD τ).loc r)

-- The six regions' results placed at the six positions the valuations between the items read; elsewhere the launch contents.
def outsOf (x0 : Res F main_v20) (x1 : Res F main_v29) (x2 : Res F main_v46) (x3 : Res F main_v55)
    (x4 : Res F main_v72) (x5 : Res F main_v80) : Outs (F := F) :=
  fun J r c =>
    if h : J = 2 ∧ r = main_v20 then h.2 ▸ x0 c
    else if h : J = 6 ∧ r = main_v29 then h.2 ▸ x1 c
    else if h : J = 8 ∧ r = main_v46 then h.2 ▸ x2 c
    else if h : J = 12 ∧ r = main_v55 then h.2 ▸ x3 c
    else if h : J = 14 ∧ r = main_v72 then h.2 ▸ x4 c
    else if h : J = 16 ∧ r = main_v80 then h.2 ▸ x5 c
    else m ((c : Thread nD τ).loc r)

variable (x0 : Res F main_v20) (x1 : Res F main_v29) (x2 : Res F main_v46) (x3 : Res F main_v55)
  (x4 : Res F main_v72) (x5 : Res F main_v80) (c : Dev nD)

theorem outsOf_2 : outsOf m x0 x1 x2 x3 x4 x5 2 main_v20 c = x0 c := by
  unfold outsOf; repeat rw [dif_neg (fun h => absurd h.1 (by decide))]
  rw [dif_pos ⟨rfl, rfl⟩]
theorem outsOf_6 : outsOf m x0 x1 x2 x3 x4 x5 6 main_v29 c = x1 c := by
  unfold outsOf; repeat rw [dif_neg (fun h => absurd h.1 (by decide))]
  rw [dif_pos ⟨rfl, rfl⟩]
theorem outsOf_8 : outsOf m x0 x1 x2 x3 x4 x5 8 main_v46 c = x2 c := by
  unfold outsOf; repeat rw [dif_neg (fun h => absurd h.1 (by decide))]
  rw [dif_pos ⟨rfl, rfl⟩]
theorem outsOf_12 : outsOf m x0 x1 x2 x3 x4 x5 12 main_v55 c = x3 c := by
  unfold outsOf; repeat rw [dif_neg (fun h => absurd h.1 (by decide))]
  rw [dif_pos ⟨rfl, rfl⟩]
theorem outsOf_14 : outsOf m x0 x1 x2 x3 x4 x5 14 main_v72 c = x4 c := by
  unfold outsOf; repeat rw [dif_neg (fun h => absurd h.1 (by decide))]
  rw [dif_pos ⟨rfl, rfl⟩]
theorem outsOf_16 : outsOf m x0 x1 x2 x3 x4 x5 16 main_v80 c = x5 c := by
  unfold outsOf; repeat rw [dif_neg (fun h => absurd h.1 (by decide))]
  rw [dif_pos ⟨rfl, rfl⟩]

end Cert.Kernel.Hand

end
-- ==== Proof.K.Conv0.lean ====
import proofs.«401110_j833223655738_3_alg».proof.Proof.Gen.Kernel.Launch
import proofs.«401110_j833223655738_3_alg».proof.Proof.Gen.Kernel.Skeleton
import proofs.«401110_j833223655738_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Conv0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 x1 : Vec F S5000x64 .f32) (x2 x3 : Vec F S64x64 .f32) (x4 : Vec F S1x64 .f32) : Vec F S5000x64 .f32 := k0_pay1 x0 x1 x2 x3 x4

set_option maxHeartbeats 1000000 in
-- Five whole loads and one whole store: the store covers the buffer, so the buffer ends at the payload of what was loaded.
theorem tile_triple0 (c : Dev nD) (E : Set ℕ) (i : grid0.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S5000x64 .f32) (harg5 : arg5.IsWhole)
    (x0 x1 : Vec F S5000x64 .f32) (x2 x3 : Vec F S64x64 .f32) (x4 : Vec F S1x64 .f32) (R₁ R₂ : sProp 𝕄) :
    iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d))
      ⊢ wp frame (wpE (defs₀ (F := F)) Variants.none c none) E (cc0__graph_conv_kernel i arg0 harg0 arg1 harg1 arg2 harg2 arg3 harg3 arg4 harg4 arg5 harg5)
          (fun _ => iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4))) := by
  simp only [cc0__graph_conv_kernel_eq_skeleton]; unfold cc0__graph_conv_kernel_skel
  unfold owns
  iintro ⟨HR₁, HR₂, ⟨%f0, %hf0, H0⟩, ⟨%f1, %hf1, H1⟩, ⟨%f2, %hf2, H2⟩, ⟨%f3, %hf3, H3⟩, ⟨%f4, %hf4, H4⟩, ⟨%d5, %f5, -, H5⟩⟩
  subst hf0 hf1 hf2 hf3 hf4
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := by decide
  rw [View.read_writes_eq_canon _ _ _ fun y => ⟨_, List.mem_cons_self .., View.mem_set_unit_zero hz inb_S5000x64_S5000x64_0_0 y⟩,
    View.canon_unit_zero hz]
  simp only [View.readAt_eq_ld, View.ld_unit_zero (S := S5000x64) hz, View.ld_unit_zero (S := S64x64) hz, View.ld_unit_zero (S := S1x64) hz]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_0, before0_1, before0_2, before0_3, before0_4]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (tile_triple0 c Set.univ _ _ _ _ _ _ _ _ _ _ _ _ _ (iblk0 V c 0 t) (iblk0 V c 1 t) (iblk0 V c 2 t) (iblk0 V c 3 t) (iblk0 V c 4 t)
    ((dat0 V c).Φ t.castSucc) ((dat0 V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

end Conv0

end Cert.Kernel.Hand

end
-- ==== Proof.K.Bn1.lean ====
import proofs.«401110_j833223655738_3_alg».proof.Proof.Gen.Kernel.Launch
import proofs.«401110_j833223655738_3_alg».proof.Proof.Gen.Kernel.Skeleton
import proofs.«401110_j833223655738_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 : Vec F S5000x64 .f32) (x1 x2 x3 x4 : Vec F S1x64 .f32) : Vec F S5000x64 .f32 := k1_pay1 x0 x2 x3 x1 x4

local macro "give_back " f:ident H:ident : tactic =>
  `(tactic| (isplitl [$H:ident]; · (iexists $f:ident; isplitr; · (ipureintro; rfl)
                                    iexact $H:ident)))

set_option maxHeartbeats 1000000 in
-- Five whole loads and one whole store: the store covers the buffer, so the buffer ends at the payload of what was loaded.
theorem bn_relu_body1 (c : Dev nD) (E : Set ℕ) (i : grid1.Coords)
    (bh : Memref sig .tc .vmem S5000x64 .f32) (hbh : bh.IsWhole) (bmean : Memref sig .tc .vmem S1x64 .f32) (hbmean : bmean.IsWhole)
    (bvar : Memref sig .tc .vmem S1x64 .f32) (hbvar : bvar.IsWhole) (bscale : Memref sig .tc .vmem S1x64 .f32) (hbscale : bscale.IsWhole)
    (bshift : Memref sig .tc .vmem S1x64 .f32) (hbshift : bshift.IsWhole) (bout : Memref sig .tc .vmem S5000x64 .f32) (hbout : bout.IsWhole)
    (x0 : Vec F S5000x64 .f32) (x1 x2 x3 x4 : Vec F S1x64 .f32) (K : PUnit → sProp 𝕄) :
    iprop(owns (c : Thread nD τ) bh fullShare x0 ∗ owns (c : Thread nD τ) bmean fullShare x1 ∗ owns (c : Thread nD τ) bvar fullShare x2
        ∗ owns (c : Thread nD τ) bscale fullShare x3 ∗ owns (c : Thread nD τ) bshift fullShare x4 ∗ (∃ d, owns (c : Thread nD τ) bout fullShare d)
        ∗ (iprop(owns (c : Thread nD τ) bh fullShare x0 ∗ owns (c : Thread nD τ) bmean fullShare x1 ∗ owns (c : Thread nD τ) bvar fullShare x2
            ∗ owns (c : Thread nD τ) bscale fullShare x3 ∗ owns (c : Thread nD τ) bshift fullShare x4
            ∗ owns (c : Thread nD τ) bout fullShare (out1_5 x0 x1 x2 x3 x4)) -∗ K ⟨⟩))
      ⊢ wp frame (wpE (defs₀ (F := F)) Variants.none c none) E
          (cc1__bn_relu_kernel i bh hbh bmean hbmean bvar hbvar bscale hbscale bshift hbshift bout hbout) K := by
  simp only [cc1__bn_relu_kernel_eq_skeleton]; unfold cc1__bn_relu_kernel_skel
  unfold owns
  iintro ⟨⟨%fh, %eh, Hh⟩, ⟨%fm, %em, Hm⟩, ⟨%fv, %ev, Hv⟩, ⟨%fg, %eg, Hg⟩, ⟨%fb, %eb, Hb⟩, ⟨%d, %fo, -, Ho⟩, Hk⟩
  subst eh em ev eg eb
  sl_exec
  sl_step
  iapply Hk
  give_back fh Hh
  give_back fm Hm
  give_back fv Hv
  give_back fg Hg
  give_back fb Hb
  iexists _; isplitr
  swap; · iexact Ho
  ipureintro
  have hz : (![0, 0] : Fin 2 → Nat) = fun _ => 0 := by decide
  rw [View.read_writes_eq_canon _ _ _ fun y => ⟨_, List.mem_cons_self .., View.mem_set_unit_zero hz inb_S5000x64_S5000x64_0_0 y⟩,
    View.canon_unit_zero hz]
  simp only [View.readAt_eq_ld, View.ld_unit_zero (S := S5000x64) hz, View.ld_unit_zero (S := S1x64) hz]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

-- The input buffers hold their blocks, so the body's triple applies; the invariant and the debt pass through.
theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  iintro ⟨HΦ, Hdebt, ⟨%d0, Hh⟩, ⟨%d1, Hm⟩, ⟨%d2, Hv⟩, ⟨%d3, Hg⟩, ⟨%d4, Hb⟩, ⟨%d5, Ho⟩⟩
  iapply (bn_relu_body1 c Set.univ (grid1.coords t) _ _ _ _ _ _ _ _ _ _ _ _
    (iblk1 V c 0 t) (iblk1 V c 1 t) (iblk1 V c 2 t) (iblk1 V c 3 t) (iblk1 V c 4 t) _)
  isplitl [Hh]; · iexact Hh
  isplitl [Hm]; · iexact Hm
  isplitl [Hv]; · iexact Hv
  isplitl [Hg]; · iexact Hg
  isplitl [Hb]; · iexact Hb
  isplitl [Ho]; · iexists _; iexact Ho
  iintro ⟨Hh, Hm, Hv, Hg, Hb, Ho⟩
  isplitl [HΦ]; · iexact HΦ
  isplitl [Hdebt]; · iexact Hdebt
  isplitl [Hh]; · iexact Hh
  isplitl [Hm]; · iexact Hm
  isplitl [Hv]; · iexact Hv
  isplitl [Hg]; · iexact Hg
  isplitl [Hb]; · iexact Hb
  iexact Ho

end Cert.Kernel.Hand
-- ==== Proof.K.Conv2.lean ====
import proofs.«401110_j833223655738_3_alg».proof.Proof.Gen.Kernel.Launch
import proofs.«401110_j833223655738_3_alg».proof.Proof.Gen.Kernel.Skeleton
import proofs.«401110_j833223655738_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Conv2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S5000x64 .f32) (x2 x3 : Vec F S64x64 .f32) (x4 : Vec F S1x64 .f32) : Vec F S5000x64 .f32 := k2_pay1 x0 x1 x2 x3 x4

set_option maxHeartbeats 1000000 in
-- Five whole loads and one whole store: the store covers the buffer, so the buffer ends at the payload of what was loaded.
theorem tile_triple2 (c : Dev nD) (E : Set ℕ) (i : grid2.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S5000x64 .f32) (harg5 : arg5.IsWhole)
    (x0 x1 : Vec F S5000x64 .f32) (x2 x3 : Vec F S64x64 .f32) (x4 : Vec F S1x64 .f32) (R₁ R₂ : sProp 𝕄) :
    iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d))
      ⊢ wp frame (wpE (defs₀ (F := F)) Variants.none c none) E (cc2__graph_conv_kernel i arg0 harg0 arg1 harg1 arg2 harg2 arg3 harg3 arg4 harg4 arg5 harg5)
          (fun _ => iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4))) := by
  simp only [cc2__graph_conv_kernel_eq_skeleton]; unfold cc2__graph_conv_kernel_skel
  unfold owns
  iintro ⟨HR₁, HR₂, ⟨%f0, %hf0, H0⟩, ⟨%f1, %hf1, H1⟩, ⟨%f2, %hf2, H2⟩, ⟨%f3, %hf3, H3⟩, ⟨%f4, %hf4, H4⟩, ⟨%d5, %f5, -, H5⟩⟩
  subst hf0 hf1 hf2 hf3 hf4
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := by decide
  rw [View.read_writes_eq_canon _ _ _ fun y => ⟨_, List.mem_cons_self .., View.mem_set_unit_zero hz inb_S5000x64_S5000x64_0_0 y⟩,
    View.canon_unit_zero hz]
  simp only [View.readAt_eq_ld, View.ld_unit_zero (S := S5000x64) hz, View.ld_unit_zero (S := S64x64) hz, View.ld_unit_zero (S := S1x64) hz]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_0, before2_1, before2_2, before2_3, before2_4]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (tile_triple2 c Set.univ _ _ _ _ _ _ _ _ _ _ _ _ _ (iblk2 V c 0 t) (iblk2 V c 1 t) (iblk2 V c 2 t) (iblk2 V c 3 t) (iblk2 V c 4 t)
    ((dat2 V c).Φ t.castSucc) ((dat2 V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

end Conv2

end Cert.Kernel.Hand

end
-- ==== Proof.K.Bn3.lean ====
import proofs.«401110_j833223655738_3_alg».proof.Proof.K.Bn1

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- Regions 1 and 3 run one body: the same operations on the same shapes.
theorem cc3_eq_cc1 : @cc3__bn_relu_kernel F _ = @cc1__bn_relu_kernel F _ := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

-- The input buffers hold their blocks, so region 1's triple applies; the invariant and the debt pass through.
theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl, cc3_eq_cc1]
  iintro ⟨HΦ, Hdebt, ⟨%d0, Hh⟩, ⟨%d1, Hm⟩, ⟨%d2, Hv⟩, ⟨%d3, Hg⟩, ⟨%d4, Hb⟩, ⟨%d5, Ho⟩⟩
  iapply (bn_relu_body1 c Set.univ (grid3.coords t) _ _ _ _ _ _ _ _ _ _ _ _
    (iblk3 V c 0 t) (iblk3 V c 1 t) (iblk3 V c 2 t) (iblk3 V c 3 t) (iblk3 V c 4 t) _)
  isplitl [Hh]; · iexact Hh
  isplitl [Hm]; · iexact Hm
  isplitl [Hv]; · iexact Hv
  isplitl [Hg]; · iexact Hg
  isplitl [Hb]; · iexact Hb
  isplitl [Ho]; · iexists _; iexact Ho
  iintro ⟨Hh, Hm, Hv, Hg, Hb, Ho⟩
  isplitl [HΦ]; · iexact HΦ
  isplitl [Hdebt]; · iexact Hdebt
  isplitl [Hh]; · iexact Hh
  isplitl [Hm]; · iexact Hm
  isplitl [Hv]; · iexact Hv
  isplitl [Hg]; · iexact Hg
  isplitl [Hb]; · iexact Hb
  iexact Ho

end Cert.Kernel.Hand
-- ==== Proof.K.Conv4.lean ====
import proofs.«401110_j833223655738_3_alg».proof.Proof.K.Conv2

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Conv4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- Regions 2 and 4 run one body: the same operations on the same shapes.
theorem cc4_eq_cc2 : @cc4__graph_conv_kernel F _ = @cc2__graph_conv_kernel F _ := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out2_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl

-- The input buffers hold their blocks, so region 2's triple applies, carrying the invariant and the debt across.
theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl, cc4_eq_cc2]
  iintro ⟨HΦ, Ho, ⟨%d0, H0⟩, ⟨%d1, H1⟩, ⟨%d2, H2⟩, ⟨%d3, H3⟩, ⟨%d4, H4⟩, ⟨%d5, H5⟩⟩
  iapply (tile_triple2 c Set.univ _ _ _ _ _ _ _ _ _ _ _ _ _ (iblk4 V c 0 t) (iblk4 V c 1 t) (iblk4 V c 2 t) (iblk4 V c 3 t) (iblk4 V c 4 t)
    ((dat4 V c).Φ t.castSucc) ((dat4 V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

end Conv4

end Cert.Kernel.Hand

end
-- ==== Proof.K.Pool5Base.lean ====
import proofs.«401110_j833223655738_3_alg».proof.Proof.Gen.Kernel.Launch
import proofs.«401110_j833223655738_3_alg».proof.Proof.Gen.Kernel.Skeleton
import proofs.«401110_j833223655738_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev isFirst (i : grid5.Coords) : Prop :=
  (Scalar.cmpi .ne (Scalar.extui (Scalar.cmpi .eq (BitVec.ofNat 32 (i 0).val) 0#32)) 0#32) = 1#1

abbrev isLast (i : grid5.Coords) : Prop := k5_cond2 i = 1#1

theorem isFirst_iff : ∀ t : Fin cfg5.N, isFirst (grid5.coords t) ↔ t.val = 0 :=
  (by decide +kernel : ∀ t : Fin grid5.N, isFirst (grid5.coords t) ↔ t.val = 0)
theorem isLast_iff : ∀ t : Fin cfg5.N, isLast (grid5.coords t) ↔ t.val = 9 :=
  (by decide +kernel : ∀ t : Fin grid5.N, isLast (grid5.coords t) ↔ t.val = 9)

theorem out_idle : ∀ t : Fin cfg5.N, t.val ≠ 9 → cfg5.idle 5 (grid5.coords t) = true ∧ (cfg5.win 5).flush t = false := by decide +kernel

theorem out_live : ∀ t : Fin cfg5.N, t.val = 9 → cfg5.idle 5 (grid5.coords t) = false := by decide +kernel

abbrev accM : Memref sig .tc .vmem S256x64 .f32 := Memref.whole cc5_scratch0

abbrev others (c : Dev nD) : sProp 𝕄 :=
  Pipeline.scopedRestBut (Ix := Unit) (Name := ℕ) (U := UR sig nD τ) (Lvl := ℕ) (Val := Elt F) spec5 c [cc5_scratch0]

theorem inv_split (c : Dev nD) :
    (Pipeline.ΦA spec5 c : sProp 𝕄)
      = iprop(iprop(iprop(∃ d, owns (c : Thread nD τ) accM fullShare d) ∗ others (F := F) c) ∗ (∃ r, prngReg c r)) := by
  unfold Pipeline.ΦA; rw [scopedRest5_split]; simp only [accM, owns_whole]; try rfl

section Whole
variable {κ : Kind} {sp : Space} {S : Shape} {e : EltTy}

theorem load_whole (m : Memref sig κ sp S e) (h : m.IsWhole) {off : Fin S.rank → ℕ} (hz : off = fun _ => 0)
    (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

theorem read_last_whole (v : View sig κ sp S e) (f : v.ty.Contents (Elt F)) {off : Fin S.rank → ℕ} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

theorem zz : (![0, 0] : Fin 2 → ℕ) = fun _ => 0 := by funext a; fin_cases a <;> rfl

end Cert.Kernel.Hand

end
-- ==== Proof.K.Pool5Acc.lean ====
import proofs.«401110_j833223655738_3_alg».proof.Proof.K.Pool5Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The accumulator after tile n: S₀ = 0 + P₀, Sₙ = Sₙ₋₁ + Pₙ, with Pₙ the n-th tile's per-graph sums.
def acc5 (c : Dev nD) : (n : ℕ) → n < cfg5.N → Vec F S256x64 .f32
  | 0, hn => k5_pay2 (iblk5 V c 1 ⟨0, hn⟩) (iblk5 V c 0 ⟨0, hn⟩) k5_pay1
  | n + 1, hn => k5_pay2 (iblk5 V c 1 ⟨n + 1, hn⟩) (iblk5 V c 0 ⟨n + 1, hn⟩) (acc5 c n (Nat.lt_of_succ_lt hn))

def outsAt5 (c : Dev nD) (n : ℕ) (hn : n < cfg5.N) : Vec F S256x2 .f32 × Vec F S256x64 .f32 :=
  (k5_pay3 (acc5 V c n hn) (iblk5 V c 2 ⟨n, hn⟩) (iblk5 V c 3 ⟨n, hn⟩) (iblk5 V c 4 ⟨n, hn⟩), acc5 V c n hn)

theorem scratch5_A (c : Dev nD) (t : Fin cfg5.N) (h : t.val = 0) :
    (outsAt5 V c t.val t.isLt).2 = k5_pay2 (iblk5 V c 1 t) (iblk5 V c 0 t) k5_pay1 := by
  obtain ⟨n, hn⟩ := t
  obtain rfl : n = 0 := h
  rfl

theorem scratch5_BC (c : Dev nD) (t : Fin cfg5.N) (h : 1 ≤ t.val) :
    (outsAt5 V c t.val t.isLt).2
      = k5_pay2 (iblk5 V c 1 t) (iblk5 V c 0 t) (outsAt5 V c (t.val - 1) (Nat.lt_of_le_of_lt (Nat.sub_le _ _) t.isLt)).2 := by
  obtain ⟨n, hn⟩ := t
  cases n with
  | zero => exact absurd h (Nat.not_succ_le_zero 0)
  | succ n => rfl

theorem out5_C (c : Dev nD) (t : Fin cfg5.N) (h : t.val = 9) :
    (outsAt5 V c t.val t.isLt).1 = k5_pay3 (outsAt5 V c t.val t.isLt).2 (iblk5 V c 2 t) (iblk5 V c 3 t) (iblk5 V c 4 t) := rfl

end Cert.Kernel.Hand

end
-- ==== Proof.K.Pool5First.lean ====
import proofs.«401110_j833223655738_3_alg».proof.Proof.K.Pool5Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem pool_first (c : Dev nD) (E : Set ℕ) (i : grid5.Coords)
    (a1 : Memref sig .tc .vmem S5000x64 .f32) (h1 : a1.IsWhole) (a2 : Memref sig .tc .vmem S5000x1 .i32) (h2 : a2.IsWhole)
    (a3 : Memref sig .tc .vmem S256x1 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (a7 : Memref sig .tc .vmem S256x64 .f32) (h7 : a7.IsWhole)
    (hF : isFirst i) (hL : ¬isLast i)
    (xh : Vec F S5000x64 .f32) (xb : Vec F S5000x1 .i32) (K : PUnit → sProp 𝕄) :
    iprop(owns (c : Thread nD τ) a1 fullShare xh ∗ owns (c : Thread nD τ) a2 fullShare xb ∗ (∃ d, owns (c : Thread nD τ) a7 fullShare d)
        ∗ (iprop(owns (c : Thread nD τ) a1 fullShare xh ∗ owns (c : Thread nD τ) a2 fullShare xb
            ∗ owns (c : Thread nD τ) a7 fullShare (k5_pay2 xb xh k5_pay1)) -∗ K ⟨⟩))
      ⊢ wp frame (wpE (defs₀ (F := F)) Variants.none c none) E
          (cc5__pool_linear_kernel i a1 h1 a2 h2 a3 h3 a4 h4 a5 h5 a6 h6 a7 h7) K := by
  rw [cc5__pool_linear_kernel_eq_skeleton]; unfold cc5__pool_linear_kernel_skel
  unfold owns
  iintro ⟨⟨%f1, %e1, H1⟩, ⟨%f2, %e2, H2⟩, ⟨%d7, %f7, -, H7⟩, Hk⟩
  obtain rfl := h1.eq_unread e1; obtain rfl := h2.eq_unread e2
  sl_exec (disch := first | exact hF | exact hL)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H7
  ipureintro
  sl_unfold_words
  rw [read_last_whole _ _ zz, load_whole a2 h2 zz, load_whole a1 h1 zz, View.readCov_unit_zero (S := S256x64) _ zz]

end Cert.Kernel.Hand

end
-- ==== Proof.K.Pool5Mid.lean ====
import proofs.«401110_j833223655738_3_alg».proof.Proof.K.Pool5Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem pool_mid (c : Dev nD) (E : Set ℕ) (i : grid5.Coords)
    (a1 : Memref sig .tc .vmem S5000x64 .f32) (h1 : a1.IsWhole) (a2 : Memref sig .tc .vmem S5000x1 .i32) (h2 : a2.IsWhole)
    (a3 : Memref sig .tc .vmem S256x1 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (a7 : Memref sig .tc .vmem S256x64 .f32) (h7 : a7.IsWhole)
    (hF : ¬isFirst i) (hL : ¬isLast i)
    (xh : Vec F S5000x64 .f32) (xb : Vec F S5000x1 .i32) (xa : Vec F S256x64 .f32) (K : PUnit → sProp 𝕄) :
    iprop(owns (c : Thread nD τ) a1 fullShare xh ∗ owns (c : Thread nD τ) a2 fullShare xb ∗ owns (c : Thread nD τ) a7 fullShare xa
        ∗ (iprop(owns (c : Thread nD τ) a1 fullShare xh ∗ owns (c : Thread nD τ) a2 fullShare xb
            ∗ owns (c : Thread nD τ) a7 fullShare (k5_pay2 xb xh xa)) -∗ K ⟨⟩))
      ⊢ wp frame (wpE (defs₀ (F := F)) Variants.none c none) E
          (cc5__pool_linear_kernel i a1 h1 a2 h2 a3 h3 a4 h4 a5 h5 a6 h6 a7 h7) K := by
  rw [cc5__pool_linear_kernel_eq_skeleton]; unfold cc5__pool_linear_kernel_skel
  unfold owns
  iintro ⟨⟨%f1, %e1, H1⟩, ⟨%f2, %e2, H2⟩, ⟨%f7, %e7, H7⟩, Hk⟩
  obtain rfl := h1.eq_unread e1; obtain rfl := h2.eq_unread e2; obtain rfl := h7.eq_unread e7
  sl_exec (disch := first | exact hF | exact hL)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H7
  ipureintro
  sl_unfold_words
  rw [read_last_whole _ _ zz, load_whole a2 h2 zz, load_whole a1 h1 zz, load_whole a7 h7 zz]

end Cert.Kernel.Hand

end
-- ==== Proof.K.Pool5Last.lean ====
import proofs.«401110_j833223655738_3_alg».proof.Proof.K.Pool5Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem pool_last (c : Dev nD) (E : Set ℕ) (i : grid5.Coords)
    (a1 : Memref sig .tc .vmem S5000x64 .f32) (h1 : a1.IsWhole) (a2 : Memref sig .tc .vmem S5000x1 .i32) (h2 : a2.IsWhole)
    (a3 : Memref sig .tc .vmem S256x1 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (a7 : Memref sig .tc .vmem S256x64 .f32) (h7 : a7.IsWhole)
    (hF : ¬isFirst i) (hL : isLast i)
    (xh : Vec F S5000x64 .f32) (xb : Vec F S5000x1 .i32) (xc : Vec F S256x1 .f32) (xw : Vec F S64x2 .f32) (xl : Vec F S1x2 .f32)
    (xa : Vec F S256x64 .f32) (K : PUnit → sProp 𝕄) :
    iprop(owns (c : Thread nD τ) a1 fullShare xh ∗ owns (c : Thread nD τ) a2 fullShare xb ∗ owns (c : Thread nD τ) a3 fullShare xc
        ∗ owns (c : Thread nD τ) a4 fullShare xw ∗ owns (c : Thread nD τ) a5 fullShare xl ∗ (∃ d, owns (c : Thread nD τ) a6 fullShare d)
        ∗ owns (c : Thread nD τ) a7 fullShare xa
        ∗ (iprop(owns (c : Thread nD τ) a1 fullShare xh ∗ owns (c : Thread nD τ) a2 fullShare xb ∗ owns (c : Thread nD τ) a3 fullShare xc
            ∗ owns (c : Thread nD τ) a4 fullShare xw ∗ owns (c : Thread nD τ) a5 fullShare xl
            ∗ owns (c : Thread nD τ) a6 fullShare (k5_pay3 (k5_pay2 xb xh xa) xc xw xl)
            ∗ owns (c : Thread nD τ) a7 fullShare (k5_pay2 xb xh xa)) -∗ K ⟨⟩))
      ⊢ wp frame (wpE (defs₀ (F := F)) Variants.none c none) E
          (cc5__pool_linear_kernel i a1 h1 a2 h2 a3 h3 a4 h4 a5 h5 a6 h6 a7 h7) K := by
  rw [cc5__pool_linear_kernel_eq_skeleton]; unfold cc5__pool_linear_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%f7, %e7, H7⟩, Hk⟩
  obtain rfl := h1.eq_unread e1; obtain rfl := h2.eq_unread e2; obtain rfl := h3.eq_unread e3
  obtain rfl := h4.eq_unread e4; obtain rfl := h5.eq_unread e5; obtain rfl := h7.eq_unread e7
  sl_exec (disch := first | exact hF | exact hL)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [read_last_whole _ _ zz, load_whole a3 h3 zz, load_whole a4 h4 zz, load_whole a5 h5 zz, View.readCov_unit_zero (S := S256x64) _ zz,
      load_whole a2 h2 zz, load_whole a1 h1 zz, load_whole a7 h7 zz]
  iexists _; isplitr
  swap; · iexact H7
  ipureintro
  sl_unfold_words
  rw [read_last_whole _ _ zz, load_whole a2 h2 zz, load_whole a1 h1 zz, load_whole a7 h7 zz]

end Cert.Kernel.Hand

end
-- ==== Proof.K.Pool5.lean ====
import proofs.«401110_j833223655738_3_alg».proof.Proof.K.Pool5Acc
import proofs.«401110_j833223655738_3_alg».proof.Proof.K.Pool5First
import proofs.«401110_j833223655738_3_alg».proof.Proof.K.Pool5Mid
import proofs.«401110_j833223655738_3_alg».proof.Proof.K.Pool5Last

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The invariant between tiles: the accumulator at the sums so far (before the first tile, at anything).
def PhiS5 (c : Dev nD) : (n : ℕ) → n ≤ cfg5.N → sProp 𝕄
  | 0, _ => Pipeline.ΦA spec5 c
  | n + 1, hn => iprop(iprop(owns (c : Thread nD τ) accM fullShare (outsAt5 V c n hn).2 ∗ others (F := F) c) ∗ (∃ r, prngReg c r))

theorem PhiS5_first (c : Dev nD) (n : ℕ) (h : n ≤ cfg5.N) (hz : n = 0) : PhiS5 V c n h = Pipeline.ΦA spec5 c := by
  subst hz; rfl

theorem PhiS5_later (c : Dev nD) (n : ℕ) (h : n ≤ cfg5.N) (hz : n ≠ 0) :
    PhiS5 V c n h = iprop(iprop(owns (c : Thread nD τ) accM fullShare (outsAt5 V c (n - 1) (by omega)).2 ∗ others (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) : (dat5 V c).after 5 t = (outsAt5 V c t.val t.isLt).1 := by dsimp only [dat5]

theorem Phi_at (c : Dev nD) (t : Fin cfg5.N) : (dat5 V c).Φ t.castSucc = PhiS5 V c t.val (Nat.le_of_lt t.isLt) := by
  dsimp only [dat5]; simp only [Fin.coe_castSucc]

theorem Phi_next (c : Dev nD) (t : Fin cfg5.N) :
    (dat5 V c).Φ t.succ
      = iprop(iprop(owns (c : Thread nD τ) accM fullShare (outsAt5 V c t.val t.isLt).2 ∗ others (F := F) c) ∗ (∃ r, prngReg c r)) := rfl

theorem found5_0 (c : Dev nD) (t : Fin cfg5.N) (d) : (dat5 V c).before 0 t d = iblk5 V c 0 t := ((dat5 V c).before_in_eq_fetched 0 rfl (fun _ => rfl) (fun _ _ _ => rfl) (fun _ => rfl) t d).trans rfl
theorem found5_1 (c : Dev nD) (t : Fin cfg5.N) (d) : (dat5 V c).before 1 t d = iblk5 V c 1 t := ((dat5 V c).before_in_eq_fetched 1 rfl (fun _ => rfl) (fun _ _ _ => rfl) (fun _ => rfl) t d).trans rfl
theorem found5_2 (c : Dev nD) (t : Fin cfg5.N) (d) : (dat5 V c).before 2 t d = iblk5 V c 2 t := ((dat5 V c).before_in_eq_fetched 2 rfl (fun _ => rfl) (fun _ _ _ => rfl) (fun _ => rfl) t d).trans rfl
theorem found5_3 (c : Dev nD) (t : Fin cfg5.N) (d) : (dat5 V c).before 3 t d = iblk5 V c 3 t := ((dat5 V c).before_in_eq_fetched 3 rfl (fun _ => rfl) (fun _ _ _ => rfl) (fun _ => rfl) t d).trans rfl
theorem found5_4 (c : Dev nD) (t : Fin cfg5.N) (d) : (dat5 V c).before 4 t d = iblk5 V c 4 t := ((dat5 V c).before_in_eq_fetched 4 rfl (fun _ => rfl) (fun _ _ _ => rfl) (fun _ => rfl) t d).trans rfl

def inputs5 (c : Dev nD) (t : Fin cfg5.N) : sProp 𝕄 :=
  iprop(owns (c : Thread nD τ) (st5_0 t) fullShare (iblk5 V c 0 t) ∗ owns (c : Thread nD τ) (st5_1 t) fullShare (iblk5 V c 1 t)
    ∗ owns (c : Thread nD τ) (st5_2 t) fullShare (iblk5 V c 2 t) ∗ owns (c : Thread nD τ) (st5_3 t) fullShare (iblk5 V c 3 t)
    ∗ owns (c : Thread nD τ) (st5_4 t) fullShare (iblk5 V c 4 t))

def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def post5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t
    ∗ (dat5 V c).leavesExact 3 t ∗ (dat5 V c).leavesExact 4 t ∗ (dat5 V c).leavesExact 5 t)

theorem pre5_open (c : Dev nD) (t : Fin cfg5.N) :
    pre5 V c t ⊢ iprop(PhiS5 V c t.val (Nat.le_of_lt t.isLt) ∗ (dat5 V c).owesAt () t.castSucc ∗ inputs5 V c t
      ∗ (∃ d, owns (c : Thread nD τ) (st5_5 t) fullShare ((dat5 V c).before 5 t d))) := by
  unfold pre5 inputs5
  simp only [found5_0, found5_1, found5_2, found5_3, found5_4]
  rw [Phi_at]
  iintro ⟨HΦ, Ho, ⟨%d0, H0⟩, ⟨%d1, H1⟩, ⟨%d2, H2⟩, ⟨%d3, H3⟩, ⟨%d4, H4⟩, H5⟩
  isplitl [HΦ]; · iexact HΦ
  isplitl [Ho]; · iexact Ho
  isplitr [H5]
  · isplitl [H0]; · iexact H0
    isplitl [H1]; · iexact H1
    isplitl [H2]; · iexact H2
    isplitl [H3]; · iexact H3
    iexact H4
  iexact H5

theorem inputs5_close (c : Dev nD) (t : Fin cfg5.N) (R : sProp 𝕄) :
    iprop(inputs5 V c t ∗ R) ⊢ iprop((dat5 V c).leavesExact 0 t ∗ (dat5 V c).leavesExact 1 t ∗ (dat5 V c).leavesExact 2 t
      ∗ (dat5 V c).leavesExact 3 t ∗ (dat5 V c).leavesExact 4 t ∗ R) := by
  unfold inputs5
  iintro ⟨⟨H0, H1, H2, H3, H4⟩, HR⟩
  isplitl [H0]; · iexact H0
  isplitl [H1]; · iexact H1
  isplitl [H2]; · iexact H2
  isplitl [H3]; · iexact H3
  isplitl [H4]; · iexact H4
  iexact HR

theorem step_first (c : Dev nD) (t : Fin cfg5.N) (h0 : t.val = 0) :
    pre5 V c t ⊢ wp frame (wpE (defs₀ (F := F)) Variants.none c none) Set.univ (bodyAt5 t) (fun _ => post5 V c t) := by
  have hF : isFirst (grid5.coords t) := (isFirst_iff t).mpr h0
  have hL : ¬isLast (grid5.coords t) := fun h => by have := (isLast_iff t).mp h; omega
  obtain ⟨hid, hfl⟩ := out_idle t (by omega)
  refine (pre5_open V c t).trans ?_
  unfold post5 bodyAt5
  rw [show (dat5 V c).owesAt () t.succ = (dat5 V c).owesAt () t.castSucc from rfl, Phi_next,
    Dat.leavesExact_idle (dat5 V c) 5 t hid hfl, scratch5_A V c t h0, PhiS5_first V c _ _ h0, inv_split]
  unfold inputs5
  iintro ⟨⟨⟨HS, Hr⟩, Hg⟩, Ho, ⟨H0, H1, H2, H3, H4⟩, H5⟩
  iapply (pool_first c Set.univ (grid5.coords t) _ _ _ _ _ _ _ _ _ _ _ _ _ _ hF hL (iblk5 V c 0 t) (iblk5 V c 1 t) _)
  isplitl [H0]; · iexact H0
  isplitl [H1]; · iexact H1
  isplitl [HS]; · iexact HS
  iintro ⟨H0, H1, HS⟩
  isplitl [HS Hr Hg]
  · isplitl [HS Hr]
    · isplitl [HS]; · iexact HS
      iexact Hr
    iexact Hg
  isplitl [Ho]; · iexact Ho
  iapply (inputs5_close V c t _)
  isplitr [H5]
  swap; · iexact H5
  unfold inputs5
  isplitl [H0]; · iexact H0
  isplitl [H1]; · iexact H1
  isplitl [H2]; · iexact H2
  isplitl [H3]; · iexact H3
  iexact H4

theorem step_mid (c : Dev nD) (t : Fin cfg5.N) (h0 : t.val ≠ 0) (h9 : t.val ≠ 9) :
    pre5 V c t ⊢ wp frame (wpE (defs₀ (F := F)) Variants.none c none) Set.univ (bodyAt5 t) (fun _ => post5 V c t) := by
  have hF : ¬isFirst (grid5.coords t) := fun h => h0 ((isFirst_iff t).mp h)
  have hL : ¬isLast (grid5.coords t) := fun h => h9 ((isLast_iff t).mp h)
  obtain ⟨hid, hfl⟩ := out_idle t h9
  refine (pre5_open V c t).trans ?_
  unfold post5 bodyAt5
  rw [show (dat5 V c).owesAt () t.succ = (dat5 V c).owesAt () t.castSucc from rfl, Phi_next,
    Dat.leavesExact_idle (dat5 V c) 5 t hid hfl, scratch5_BC V c t (Nat.pos_of_ne_zero h0), PhiS5_later V c _ _ h0]
  unfold inputs5
  iintro ⟨⟨⟨HS, Hr⟩, Hg⟩, Ho, ⟨H0, H1, H2, H3, H4⟩, H5⟩
  iapply (pool_mid c Set.univ (grid5.coords t) _ _ _ _ _ _ _ _ _ _ _ _ _ _ hF hL (iblk5 V c 0 t) (iblk5 V c 1 t) _ _)
  isplitl [H0]; · iexact H0
  isplitl [H1]; · iexact H1
  isplitl [HS]; · iexact HS
  iintro ⟨H0, H1, HS⟩
  isplitl [HS Hr Hg]
  · isplitl [HS Hr]
    · isplitl [HS]; · iexact HS
      iexact Hr
    iexact Hg
  isplitl [Ho]; · iexact Ho
  iapply (inputs5_close V c t _)
  isplitr [H5]
  swap; · iexact H5
  unfold inputs5
  isplitl [H0]; · iexact H0
  isplitl [H1]; · iexact H1
  isplitl [H2]; · iexact H2
  isplitl [H3]; · iexact H3
  iexact H4

theorem step_last (c : Dev nD) (t : Fin cfg5.N) (h9 : t.val = 9) :
    pre5 V c t ⊢ wp frame (wpE (defs₀ (F := F)) Variants.none c none) Set.univ (bodyAt5 t) (fun _ => post5 V c t) := by
  have h0 : t.val ≠ 0 := by omega
  have hF : ¬isFirst (grid5.coords t) := fun h => h0 ((isFirst_iff t).mp h)
  have hL : isLast (grid5.coords t) := (isLast_iff t).mpr h9
  refine (pre5_open V c t).trans ?_
  unfold post5 bodyAt5
  rw [show (dat5 V c).owesAt () t.succ = (dat5 V c).owesAt () t.castSucc from rfl, Phi_next,
    show (dat5 V c).leavesExact 5 t = owns (c : Thread nD τ) (st5_5 t) fullShare ((dat5 V c).after 5 t) from by
      unfold Dat.leavesExact; rw [out_live t h9],
    after5_5, out5_C V c t h9, scratch5_BC V c t (Nat.pos_of_ne_zero h0), PhiS5_later V c _ _ h0]
  unfold inputs5
  iintro ⟨⟨⟨HS, Hr⟩, Hg⟩, Ho, ⟨H0, H1, H2, H3, H4⟩, ⟨%d5, H5⟩⟩
  iapply (pool_last c Set.univ (grid5.coords t) _ _ _ _ _ _ _ _ _ _ _ _ _ _ hF hL (iblk5 V c 0 t) (iblk5 V c 1 t) (iblk5 V c 2 t)
    (iblk5 V c 3 t) (iblk5 V c 4 t) _ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hr Hg]
  · isplitl [HS Hr]
    · isplitl [HS]; · iexact HS
      iexact Hr
    iexact Hg
  isplitl [Ho]; · iexact Ho
  iapply (inputs5_close V c t _)
  isplitr [H5]
  swap; · iexact H5
  unfold inputs5
  isplitl [H0]; · iexact H0
  isplitl [H1]; · iexact H1
  isplitl [H2]; · iexact H2
  isplitl [H3]; · iexact H3
  iexact H4

-- First tile, middle tiles and last tile are the body's three control cases.
theorem body_obligation5 (c : Dev nD) : BodyObligation (dat5 (F := F) V c) (defs₀ (F := F)) Variants.none () Set.univ := fun t => by
  rw [bigSep_W5, bigSep_W5]
  by_cases h0 : t.val = 0
  · exact step_first V c t h0
  · by_cases h9 : t.val = 9
    · exact step_last V c t h9
    · exact step_mid V c t h0 h9

theorem hin5 (c : Dev nD) : Pipeline.ΦA spec5 c ⊢ (dat5 V c).Φ 0 := by
  rw [show (dat5 V c).Φ 0 = PhiS5 V c 0 (Nat.zero_le _) from rfl, PhiS5_first V c 0 _ rfl]

theorem hout5 (c : Dev nD) : (dat5 V c).Φ (Fin.last cfg5.N) ⊢ Pipeline.ΦA spec5 c := by
  have hN : cfg5.N = 10 := N_5
  rw [show (dat5 V c).Φ (Fin.last cfg5.N) = PhiS5 V c (Fin.last cfg5.N).val (Nat.le_of_lt_succ (Fin.last cfg5.N).isLt) from rfl,
    PhiS5_later V c _ _ (by rw [Fin.val_last]; omega), inv_split]
  iintro ⟨⟨HS, Hr⟩, Hg⟩
  isplitr [Hg]
  swap; · iexact Hg
  isplitl [HS]
  · iexists _; iexact HS
  iexact Hr

end Cert.Kernel.Hand

end
-- ==== Proof.K.Regs.lean ====
import proofs.«401110_j833223655738_3_alg».proof.Proof.LibRegion
import proofs.«401110_j833223655738_3_alg».proof.Proof.K.Outs
import proofs.«401110_j833223655738_3_alg».proof.Proof.K.Conv0
import proofs.«401110_j833223655738_3_alg».proof.Proof.K.Bn1
import proofs.«401110_j833223655738_3_alg».proof.Proof.K.Conv2
import proofs.«401110_j833223655738_3_alg».proof.Proof.K.Bn3
import proofs.«401110_j833223655738_3_alg».proof.Proof.K.Conv4
import proofs.«401110_j833223655738_3_alg».proof.Proof.K.Pool5

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.Kernel Cert.Kernel.Gen

variable {F : FTy → Type} [FloatOps F]
variable (m : (ℓ : Loc nD τ sig) → Buf (Elt F) ℓ)

local notation "𝕄" => MT nD τ sig Unit (Elt F) ℕ (UR sig nD τ) ℕ

-- Each region's result, computed over the results of the regions before it.
def res0 : Res F main_v20 := fun c => (dat0 (atRefs (V1 m)) c).arrAt 5 cfg0.N
abbrev outs0 : Outs (F := F) := outsOf m (res0 m) (atLaunch m _) (atLaunch m _) (atLaunch m _) (atLaunch m _) (atLaunch m _)

def res1 : Res F main_v29 := fun c => (dat1 (atRefs (V5 m (outs0 m))) c).arrAt 5 cfg1.N
abbrev outs1 : Outs (F := F) := outsOf m (res0 m) (res1 m) (atLaunch m _) (atLaunch m _) (atLaunch m _) (atLaunch m _)

def res2 : Res F main_v46 := fun c => (dat2 (atRefs (V7 m (outs1 m))) c).arrAt 5 cfg2.N
abbrev outs2 : Outs (F := F) := outsOf m (res0 m) (res1 m) (res2 m) (atLaunch m _) (atLaunch m _) (atLaunch m _)

def res3 : Res F main_v55 := fun c => (dat3 (atRefs (V11 m (outs2 m))) c).arrAt 5 cfg3.N
abbrev outs3 : Outs (F := F) := outsOf m (res0 m) (res1 m) (res2 m) (res3 m) (atLaunch m _) (atLaunch m _)

def res4 : Res F main_v72 := fun c => (dat4 (atRefs (V13 m (outs3 m))) c).arrAt 5 cfg4.N
abbrev outs4 : Outs (F := F) := outsOf m (res0 m) (res1 m) (res2 m) (res3 m) (res4 m) (atLaunch m _)

def res5 : Res F main_v80 := fun c => (dat5 (atRefs (V15 m (outs4 m))) c).arrAt 5 cfg5.N

abbrev outs : Outs (F := F) := outsOf m (res0 m) (res1 m) (res2 m) (res3 m) (res4 m) (res5 m)

variable (c : Dev nD)

theorem outs_2 : outs m 2 main_v20 c = res0 m c := outsOf_2 ..
theorem outs_6 : outs m 6 main_v29 c = res1 m c := outsOf_6 ..
theorem outs_8 : outs m 8 main_v46 c = res2 m c := outsOf_8 ..
theorem outs_12 : outs m 12 main_v55 c = res3 m c := outsOf_12 ..
theorem outs_14 : outs m 14 main_v72 c = res4 m c := outsOf_14 ..
theorem outs_16 : outs m 16 main_v80 c = res5 m c := outsOf_16 ..

-- A valuation reads only the results of the regions before it, so the full family may stand for the partial one.
theorem V5_outs : V5 m (outs m) c = V5 m (outs0 m) c := by
  simp only [V5, V4, V3, V2, outsOf_2]
theorem V7_outs : V7 m (outs m) c = V7 m (outs1 m) c := by
  simp only [V7, V6, V5, V4, V3, V2, outsOf_2, outsOf_6]
theorem V11_outs : V11 m (outs m) c = V11 m (outs2 m) c := by
  simp only [V11, V10, V9, V8, V7, V6, V5, V4, V3, V2, outsOf_2, outsOf_6, outsOf_8]
theorem V13_outs : V13 m (outs m) c = V13 m (outs3 m) c := by
  simp only [V13, V12, V11, V10, V9, V8, V7, V6, V5, V4, V3, V2, outsOf_2, outsOf_6, outsOf_8, outsOf_12]
theorem V15_outs : V15 m (outs m) c = V15 m (outs4 m) c := by
  simp only [V15, V14, V13, V12, V11, V10, V9, V8, V7, V6, V5, V4, V3, V2, outsOf_2, outsOf_6, outsOf_8, outsOf_12, outsOf_14]

def pdats : (p : Fin 6) → (c : Dev nD) → Dat τ (Elt F) Unit ℕ (UR sig nD τ) ℕ (cfgs p) c
  | ⟨0, _⟩ => fun c => dat0 (atRefs (V1 m)) c
  | ⟨1, _⟩ => fun c => dat1 (atRefs (V5 m (outs0 m))) c
  | ⟨2, _⟩ => fun c => dat2 (atRefs (V7 m (outs1 m))) c
  | ⟨3, _⟩ => fun c => dat3 (atRefs (V11 m (outs2 m))) c
  | ⟨4, _⟩ => fun c => dat4 (atRefs (V13 m (outs3 m))) c
  | ⟨5, _⟩ => fun c => dat5 (atRefs (V15 m (outs4 m))) c

theorem noflush0 : ∀ w : Fin cfg0.W, w ≠ 5 → ∀ t : Fin cfg0.N, (cfg0.win w).flush t = false :=
  (by decide +kernel : ∀ w : Fin 6, w ≠ 5 → ∀ t : Fin grid0.N, (cfg0.win w).flush t = false)
theorem arr_ne0 : ∀ w : Fin cfg0.W, w ≠ 5 → Pipeline.arrRef spec0 w ≠ Pipeline.arrRef spec0 5 := by decide
theorem noflush1 : ∀ w : Fin cfg1.W, w ≠ 5 → ∀ t : Fin cfg1.N, (cfg1.win w).flush t = false :=
  (by decide +kernel : ∀ w : Fin 6, w ≠ 5 → ∀ t : Fin grid1.N, (cfg1.win w).flush t = false)
theorem arr_ne1 : ∀ w : Fin cfg1.W, w ≠ 5 → Pipeline.arrRef spec1 w ≠ Pipeline.arrRef spec1 5 := by decide
theorem noflush2 : ∀ w : Fin cfg2.W, w ≠ 5 → ∀ t : Fin cfg2.N, (cfg2.win w).flush t = false :=
  (by decide +kernel : ∀ w : Fin 6, w ≠ 5 → ∀ t : Fin grid2.N, (cfg2.win w).flush t = false)
theorem arr_ne2 : ∀ w : Fin cfg2.W, w ≠ 5 → Pipeline.arrRef spec2 w ≠ Pipeline.arrRef spec2 5 := by decide
theorem noflush3 : ∀ w : Fin cfg3.W, w ≠ 5 → ∀ t : Fin cfg3.N, (cfg3.win w).flush t = false :=
  (by decide +kernel : ∀ w : Fin 6, w ≠ 5 → ∀ t : Fin grid3.N, (cfg3.win w).flush t = false)
theorem arr_ne3 : ∀ w : Fin cfg3.W, w ≠ 5 → Pipeline.arrRef spec3 w ≠ Pipeline.arrRef spec3 5 := by decide
theorem noflush4 : ∀ w : Fin cfg4.W, w ≠ 5 → ∀ t : Fin cfg4.N, (cfg4.win w).flush t = false :=
  (by decide +kernel : ∀ w : Fin 6, w ≠ 5 → ∀ t : Fin grid4.N, (cfg4.win w).flush t = false)
theorem arr_ne4 : ∀ w : Fin cfg4.W, w ≠ 5 → Pipeline.arrRef spec4 w ≠ Pipeline.arrRef spec4 5 := by decide
theorem noflush5 : ∀ w : Fin cfg5.W, w ≠ 5 → ∀ t : Fin cfg5.N, (cfg5.win w).flush t = false :=
  (by decide +kernel : ∀ w : Fin 6, w ≠ 5 → ∀ t : Fin grid5.N, (cfg5.win w).flush t = false)
theorem arr_ne5 : ∀ w : Fin cfg5.W, w ≠ 5 → Pipeline.arrRef spec5 w ≠ Pipeline.arrRef spec5 5 := by decide

-- Each region takes its entry valuation to the same valuation with its result array replaced.
def reg0 : RegionSeg (pcfgs (F := F)) adm (pdats m) () defs₀ noVar noLev lev0 0 :=
  regOf cfgs defs₀ (pdats m) 0 launch0 (V1 m) (exitVal (V1 m) (pdats m 0) 5)
    (fun c => (body_obligation0 (atRefs (V1 m)) c).loose)
    (fun _ _ => rfl) (fun _ _ => rfl)
    (fun c => (pdats m 0 c).share_full fun _ => rfl)
    (fun c w => A_eq0 (atRefs (V1 m)) c w)
    (fun c => .rfl) (fun c => .rfl)
    (fun c => exit_arrays (V1 m) c (pdats m 0) 5 (fun w => A_eq0 (atRefs (V1 m)) c w) noflush0 arr_ne0)
    (fun c b hb => exit_rest (V1 m) c (pdats m 0) 5 b hb)

def reg1 : RegionSeg (pcfgs (F := F)) adm (pdats m) () defs₀ noVar noLev lev0 1 :=
  regOf cfgs defs₀ (pdats m) 1 launch1 (V5 m (outs0 m)) (exitVal (V5 m (outs0 m)) (pdats m 1) 5)
    (fun c => (body_obligation1 (atRefs (V5 m (outs0 m))) c).loose)
    (fun _ _ => rfl) (fun _ _ => rfl)
    (fun c => (pdats m 1 c).share_full fun _ => rfl)
    (fun c w => A_eq1 (atRefs (V5 m (outs0 m))) c w)
    (fun c => .rfl) (fun c => .rfl)
    (fun c => exit_arrays (V5 m (outs0 m)) c (pdats m 1) 5 (fun w => A_eq1 (atRefs (V5 m (outs0 m))) c w) noflush1 arr_ne1)
    (fun c b hb => exit_rest (V5 m (outs0 m)) c (pdats m 1) 5 b hb)

def reg2 : RegionSeg (pcfgs (F := F)) adm (pdats m) () defs₀ noVar noLev lev0 2 :=
  regOf cfgs defs₀ (pdats m) 2 launch2 (V7 m (outs1 m)) (exitVal (V7 m (outs1 m)) (pdats m 2) 5)
    (fun c => (body_obligation2 (atRefs (V7 m (outs1 m))) c).loose)
    (fun _ _ => rfl) (fun _ _ => rfl)
    (fun c => (pdats m 2 c).share_full fun _ => rfl)
    (fun c w => A_eq2 (atRefs (V7 m (outs1 m))) c w)
    (fun c => .rfl) (fun c => .rfl)
    (fun c => exit_arrays (V7 m (outs1 m)) c (pdats m 2) 5 (fun w => A_eq2 (atRefs (V7 m (outs1 m))) c w) noflush2 arr_ne2)
    (fun c b hb => exit_rest (V7 m (outs1 m)) c (pdats m 2) 5 b hb)

def reg3 : RegionSeg (pcfgs (F := F)) adm (pdats m) () defs₀ noVar noLev lev0 3 :=
  regOf cfgs defs₀ (pdats m) 3 launch3 (V11 m (outs2 m)) (exitVal (V11 m (outs2 m)) (pdats m 3) 5)
    (fun c => (body_obligation3 (atRefs (V11 m (outs2 m))) c).loose)
    (fun _ _ => rfl) (fun _ _ => rfl)
    (fun c => (pdats m 3 c).share_full fun _ => rfl)
    (fun c w => A_eq3 (atRefs (V11 m (outs2 m))) c w)
    (fun c => .rfl) (fun c => .rfl)
    (fun c => exit_arrays (V11 m (outs2 m)) c (pdats m 3) 5 (fun w => A_eq3 (atRefs (V11 m (outs2 m))) c w) noflush3 arr_ne3)
    (fun c b hb => exit_rest (V11 m (outs2 m)) c (pdats m 3) 5 b hb)

def reg4 : RegionSeg (pcfgs (F := F)) adm (pdats m) () defs₀ noVar noLev lev0 4 :=
  regOf cfgs defs₀ (pdats m) 4 launch4 (V13 m (outs3 m)) (exitVal (V13 m (outs3 m)) (pdats m 4) 5)
    (fun c => (body_obligation4 (atRefs (V13 m (outs3 m))) c).loose)
    (fun _ _ => rfl) (fun _ _ => rfl)
    (fun c => (pdats m 4 c).share_full fun _ => rfl)
    (fun c w => A_eq4 (atRefs (V13 m (outs3 m))) c w)
    (fun c => .rfl) (fun c => .rfl)
    (fun c => exit_arrays (V13 m (outs3 m)) c (pdats m 4) 5 (fun w => A_eq4 (atRefs (V13 m (outs3 m))) c w) noflush4 arr_ne4)
    (fun c b hb => exit_rest (V13 m (outs3 m)) c (pdats m 4) 5 b hb)

def reg5 : RegionSeg (pcfgs (F := F)) adm (pdats m) () defs₀ noVar noLev lev0 5 :=
  regOf cfgs defs₀ (pdats m) 5 launch5 (V15 m (outs4 m)) (exitVal (V15 m (outs4 m)) (pdats m 5) 5)
    (fun c => (body_obligation5 (atRefs (V15 m (outs4 m))) c).loose)
    (fun _ _ => rfl) (fun _ _ => rfl)
    (fun c => (pdats m 5 c).share_full fun _ => rfl)
    (fun c w => A_eq5 (atRefs (V15 m (outs4 m))) c w)
    (fun c => hin5 (atRefs (V15 m (outs4 m))) c) (fun c => hout5 (atRefs (V15 m (outs4 m))) c)
    (fun c => exit_arrays (V15 m (outs4 m)) c (pdats m 5) 5 (fun w => A_eq5 (atRefs (V15 m (outs4 m))) c w) noflush5 arr_ne5)
    (fun c b hb => exit_rest (V15 m (outs4 m)) c (pdats m 5) 5 b hb)

-- That exit valuation is the next valuation of the run.
theorem exit0_eq : exitVal (V1 m) (pdats m 0) 5 c = V2 m (outs m) c := by
  show Function.update _ _ _ = Function.update _ _ _
  rw [outs_2]; rfl
theorem exit1_eq : exitVal (V5 m (outs0 m)) (pdats m 1) 5 c = V6 m (outs m) c := by
  show Function.update _ _ _ = Function.update _ _ _
  rw [V5_outs, outs_6]; rfl
theorem exit2_eq : exitVal (V7 m (outs1 m)) (pdats m 2) 5 c = V8 m (outs m) c := by
  show Function.update _ _ _ = Function.update _ _ _
  rw [V7_outs, outs_8]; rfl
theorem exit3_eq : exitVal (V11 m (outs2 m)) (pdats m 3) 5 c = V12 m (outs m) c := by
  show Function.update _ _ _ = Function.update _ _ _
  rw [V11_outs, outs_12]; rfl
theorem exit4_eq : exitVal (V13 m (outs3 m)) (pdats m 4) 5 c = V14 m (outs m) c := by
  show Function.update _ _ _ = Function.update _ _ _
  rw [V13_outs, outs_14]; rfl
theorem exit5_eq : exitVal (V15 m (outs4 m)) (pdats m 5) 5 c = V16 m (outs m) c := by
  show Function.update _ _ _ = Function.update _ _ _
  rw [V15_outs, outs_16]; rfl

abbrev u₀ : UR sig nD τ := initOf (Pipeline.cells cfgs cellOf_inj) (Pipeline.launchToks cfgs cellOf_inj)

end Cert.Kernel.Hand

end
-- ==== Proof.K.Frame.lean ====
import proofs.«401110_j833223655738_3_alg».proof.Defs
import proofs.«401110_j833223655738_3_alg».proof.Proof.Gen.Pre_finite_inputs
import proofs.«401110_j833223655738_3_alg».proof.Proof.K.Regs
import Idealize.ShloMosaic.PureOps.BitExact

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.Kernel Cert.Kernel.Gen

local notation "𝕄" => MT nD τ sig Unit (Elt Bits) ℕ (UR sig nD τ) ℕ

set_option backward.isDefEq.respectTransparency.types false in
-- The generated conditional frame, given the six regions as segments between the valuations of the run.
theorem frame : Cert.frame_Kernel := fun m ρ _ =>
  frame_cond m emb₁ () noVar noLev lev0 (fun _ _ => rfl) ρ (outs m) (pdats m) 0 (fun _ => iprop(emp)) u₀
    (by
      iintro Hu; imodintro
      isplitl [Hu]
      · iapply (show (ownU u₀ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      refine Pipeline.initEach noLev lev0 fun c => ?_
      iintro ⟨⟨-, Howes, -, Hprng, -⟩, -⟩
      imodintro
      isplitl [Hprng]; · iexists _; iexact Hprng
      iexists ∅; iexact Howes)
    (fun c => by iintro ⟨-, Howes⟩; iexact Howes)
    (reg0 m) (fun c => .rfl) (fun c => by rw [← exit0_eq m c]; exact .rfl)
    (reg1 m) (fun c => by rw [V5_outs m c]; exact .rfl) (fun c => by rw [← exit1_eq m c]; exact .rfl)
    (reg2 m) (fun c => by rw [V7_outs m c]; exact .rfl) (fun c => by rw [← exit2_eq m c]; exact .rfl)
    (reg3 m) (fun c => by rw [V11_outs m c]; exact .rfl) (fun c => by rw [← exit3_eq m c]; exact .rfl)
    (reg4 m) (fun c => by rw [V13_outs m c]; exact .rfl) (fun c => by rw [← exit4_eq m c]; exact .rfl)
    (reg5 m) (fun c => by rw [V15_outs m c]; exact .rfl) (fun c => by rw [← exit5_eq m c]; exact .rfl)

end Cert.Kernel.Hand

end
-- ==== Proof.KI.Outs.lean ====
import proofs.«401110_j833223655738_3_alg».proof.Proof.Gen.KernelIdeal.Regions

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

abbrev Res (F : FTy → Type) (r : Ref sig .tc) : Type := (c : Dev nD) → Buf (Elt F) ((c : Thread nD τ).loc r)

abbrev atLaunch (r : Ref sig .tc) : Res F r := fun c => m ((c : Thread nD τ).loc r)

-- The six regions' results placed at the six positions the valuations between the items read; elsewhere the launch contents.
def outsOf (x0 : Res F main_v20) (x1 : Res F main_v29) (x2 : Res F main_v46) (x3 : Res F main_v55)
    (x4 : Res F main_v72) (x5 : Res F main_v80) : Outs (F := F) :=
  fun J r c =>
    if h : J = 2 ∧ r = main_v20 then h.2 ▸ x0 c
    else if h : J = 6 ∧ r = main_v29 then h.2 ▸ x1 c
    else if h : J = 8 ∧ r = main_v46 then h.2 ▸ x2 c
    else if h : J = 12 ∧ r = main_v55 then h.2 ▸ x3 c
    else if h : J = 14 ∧ r = main_v72 then h.2 ▸ x4 c
    else if h : J = 16 ∧ r = main_v80 then h.2 ▸ x5 c
    else m ((c : Thread nD τ).loc r)

variable (x0 : Res F main_v20) (x1 : Res F main_v29) (x2 : Res F main_v46) (x3 : Res F main_v55)
  (x4 : Res F main_v72) (x5 : Res F main_v80) (c : Dev nD)

theorem outsOf_2 : outsOf m x0 x1 x2 x3 x4 x5 2 main_v20 c = x0 c := by
  unfold outsOf; repeat rw [dif_neg (fun h => absurd h.1 (by decide))]
  rw [dif_pos ⟨rfl, rfl⟩]
theorem outsOf_6 : outsOf m x0 x1 x2 x3 x4 x5 6 main_v29 c = x1 c := by
  unfold outsOf; repeat rw [dif_neg (fun h => absurd h.1 (by decide))]
  rw [dif_pos ⟨rfl, rfl⟩]
theorem outsOf_8 : outsOf m x0 x1 x2 x3 x4 x5 8 main_v46 c = x2 c := by
  unfold outsOf; repeat rw [dif_neg (fun h => absurd h.1 (by decide))]
  rw [dif_pos ⟨rfl, rfl⟩]
theorem outsOf_12 : outsOf m x0 x1 x2 x3 x4 x5 12 main_v55 c = x3 c := by
  unfold outsOf; repeat rw [dif_neg (fun h => absurd h.1 (by decide))]
  rw [dif_pos ⟨rfl, rfl⟩]
theorem outsOf_14 : outsOf m x0 x1 x2 x3 x4 x5 14 main_v72 c = x4 c := by
  unfold outsOf; repeat rw [dif_neg (fun h => absurd h.1 (by decide))]
  rw [dif_pos ⟨rfl, rfl⟩]
theorem outsOf_16 : outsOf m x0 x1 x2 x3 x4 x5 16 main_v80 c = x5 c := by
  unfold outsOf; repeat rw [dif_neg (fun h => absurd h.1 (by decide))]
  rw [dif_pos ⟨rfl, rfl⟩]

end Cert.KernelIdeal.Hand

end
-- ==== Proof.KI.Conv0.lean ====
import proofs.«401110_j833223655738_3_alg».proof.Proof.Gen.KernelIdeal.Launch
import proofs.«401110_j833223655738_3_alg».proof.Proof.Gen.KernelIdeal.Skeleton
import proofs.«401110_j833223655738_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Conv0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_5 (x0 x1 : Vec F S5000x64 .f32) (x2 x3 : Vec F S64x64 .f32) (x4 : Vec F S1x64 .f32) : Vec F S5000x64 .f32 := k0_pay1 x0 x1 x2 x3 x4

set_option maxHeartbeats 1000000 in
-- Five whole loads and one whole store: the store covers the buffer, so the buffer ends at the payload of what was loaded.
theorem tile_triple0 (c : Dev nD) (E : Set ℕ) (i : grid0.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S5000x64 .f32) (harg5 : arg5.IsWhole)
    (x0 x1 : Vec F S5000x64 .f32) (x2 x3 : Vec F S64x64 .f32) (x4 : Vec F S1x64 .f32) (R₁ R₂ : sProp 𝕄) :
    iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d))
      ⊢ wp frame (wpE (defs₀ (F := F)) Variants.none c none) E (cc0__graph_conv_kernel i arg0 harg0 arg1 harg1 arg2 harg2 arg3 harg3 arg4 harg4 arg5 harg5)
          (fun _ => iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4))) := by
  simp only [cc0__graph_conv_kernel_eq_skeleton]; unfold cc0__graph_conv_kernel_skel
  unfold owns
  iintro ⟨HR₁, HR₂, ⟨%f0, %hf0, H0⟩, ⟨%f1, %hf1, H1⟩, ⟨%f2, %hf2, H2⟩, ⟨%f3, %hf3, H3⟩, ⟨%f4, %hf4, H4⟩, ⟨%d5, %f5, -, H5⟩⟩
  subst hf0 hf1 hf2 hf3 hf4
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := by decide
  rw [View.read_writes_eq_canon _ _ _ fun y => ⟨_, List.mem_cons_self .., View.mem_set_unit_zero hz inb_S5000x64_S5000x64_0_0 y⟩,
    View.canon_unit_zero hz]
  simp only [View.readAt_eq_ld, View.ld_unit_zero (S := S5000x64) hz, View.ld_unit_zero (S := S64x64) hz, View.ld_unit_zero (S := S1x64) hz]
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_0, before0_1, before0_2, before0_3, before0_4]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (tile_triple0 c Set.univ _ _ _ _ _ _ _ _ _ _ _ _ _ (iblk0 V c 0 t) (iblk0 V c 1 t) (iblk0 V c 2 t) (iblk0 V c 3 t) (iblk0 V c 4 t)
    ((dat0 V c).Φ t.castSucc) ((dat0 V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

end Conv0

end Cert.KernelIdeal.Hand

end
-- ==== Proof.KI.Bn1.lean ====
import proofs.«401110_j833223655738_3_alg».proof.Proof.Gen.KernelIdeal.Launch
import proofs.«401110_j833223655738_3_alg».proof.Proof.Gen.KernelIdeal.Skeleton
import proofs.«401110_j833223655738_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_5 (x0 : Vec F S5000x64 .f32) (x1 x2 x3 x4 : Vec F S1x64 .f32) : Vec F S5000x64 .f32 := k1_pay1 x0 x2 x3 x1 x4

local macro "give_back " f:ident H:ident : tactic =>
  `(tactic| (isplitl [$H:ident]; · (iexists $f:ident; isplitr; · (ipureintro; rfl)
                                    iexact $H:ident)))

set_option maxHeartbeats 1000000 in
-- Five whole loads and one whole store: the store covers the buffer, so the buffer ends at the payload of what was loaded.
theorem bn_relu_body1 (c : Dev nD) (E : Set ℕ) (i : grid1.Coords)
    (bh : Memref sig .tc .vmem S5000x64 .f32) (hbh : bh.IsWhole) (bmean : Memref sig .tc .vmem S1x64 .f32) (hbmean : bmean.IsWhole)
    (bvar : Memref sig .tc .vmem S1x64 .f32) (hbvar : bvar.IsWhole) (bscale : Memref sig .tc .vmem S1x64 .f32) (hbscale : bscale.IsWhole)
    (bshift : Memref sig .tc .vmem S1x64 .f32) (hbshift : bshift.IsWhole) (bout : Memref sig .tc .vmem S5000x64 .f32) (hbout : bout.IsWhole)
    (x0 : Vec F S5000x64 .f32) (x1 x2 x3 x4 : Vec F S1x64 .f32) (K : PUnit → sProp 𝕄) :
    iprop(owns (c : Thread nD τ) bh fullShare x0 ∗ owns (c : Thread nD τ) bmean fullShare x1 ∗ owns (c : Thread nD τ) bvar fullShare x2
        ∗ owns (c : Thread nD τ) bscale fullShare x3 ∗ owns (c : Thread nD τ) bshift fullShare x4 ∗ (∃ d, owns (c : Thread nD τ) bout fullShare d)
        ∗ (iprop(owns (c : Thread nD τ) bh fullShare x0 ∗ owns (c : Thread nD τ) bmean fullShare x1 ∗ owns (c : Thread nD τ) bvar fullShare x2
            ∗ owns (c : Thread nD τ) bscale fullShare x3 ∗ owns (c : Thread nD τ) bshift fullShare x4
            ∗ owns (c : Thread nD τ) bout fullShare (out1_5 x0 x1 x2 x3 x4)) -∗ K ⟨⟩))
      ⊢ wp frame (wpE (defs₀ (F := F)) Variants.none c none) E
          (cc1__bn_relu_kernel i bh hbh bmean hbmean bvar hbvar bscale hbscale bshift hbshift bout hbout) K := by
  simp only [cc1__bn_relu_kernel_eq_skeleton]; unfold cc1__bn_relu_kernel_skel
  unfold owns
  iintro ⟨⟨%fh, %eh, Hh⟩, ⟨%fm, %em, Hm⟩, ⟨%fv, %ev, Hv⟩, ⟨%fg, %eg, Hg⟩, ⟨%fb, %eb, Hb⟩, ⟨%d, %fo, -, Ho⟩, Hk⟩
  subst eh em ev eg eb
  sl_exec
  sl_step
  iapply Hk
  give_back fh Hh
  give_back fm Hm
  give_back fv Hv
  give_back fg Hg
  give_back fb Hb
  iexists _; isplitr
  swap; · iexact Ho
  ipureintro
  have hz : (![0, 0] : Fin 2 → Nat) = fun _ => 0 := by decide
  rw [View.read_writes_eq_canon _ _ _ fun y => ⟨_, List.mem_cons_self .., View.mem_set_unit_zero hz inb_S5000x64_S5000x64_0_0 y⟩,
    View.canon_unit_zero hz]
  simp only [View.readAt_eq_ld, View.ld_unit_zero (S := S5000x64) hz, View.ld_unit_zero (S := S1x64) hz]
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

-- The input buffers hold their blocks, so the body's triple applies; the invariant and the debt pass through.
theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  iintro ⟨HΦ, Hdebt, ⟨%d0, Hh⟩, ⟨%d1, Hm⟩, ⟨%d2, Hv⟩, ⟨%d3, Hg⟩, ⟨%d4, Hb⟩, ⟨%d5, Ho⟩⟩
  iapply (bn_relu_body1 c Set.univ (grid1.coords t) _ _ _ _ _ _ _ _ _ _ _ _
    (iblk1 V c 0 t) (iblk1 V c 1 t) (iblk1 V c 2 t) (iblk1 V c 3 t) (iblk1 V c 4 t) _)
  isplitl [Hh]; · iexact Hh
  isplitl [Hm]; · iexact Hm
  isplitl [Hv]; · iexact Hv
  isplitl [Hg]; · iexact Hg
  isplitl [Hb]; · iexact Hb
  isplitl [Ho]; · iexists _; iexact Ho
  iintro ⟨Hh, Hm, Hv, Hg, Hb, Ho⟩
  isplitl [HΦ]; · iexact HΦ
  isplitl [Hdebt]; · iexact Hdebt
  isplitl [Hh]; · iexact Hh
  isplitl [Hm]; · iexact Hm
  isplitl [Hv]; · iexact Hv
  isplitl [Hg]; · iexact Hg
  isplitl [Hb]; · iexact Hb
  iexact Ho

end Cert.KernelIdeal.Hand
-- ==== Proof.KI.Conv2.lean ====
import proofs.«401110_j833223655738_3_alg».proof.Proof.Gen.KernelIdeal.Launch
import proofs.«401110_j833223655738_3_alg».proof.Proof.Gen.KernelIdeal.Skeleton
import proofs.«401110_j833223655738_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Conv2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_5 (x0 x1 : Vec F S5000x64 .f32) (x2 x3 : Vec F S64x64 .f32) (x4 : Vec F S1x64 .f32) : Vec F S5000x64 .f32 := k2_pay1 x0 x1 x2 x3 x4

set_option maxHeartbeats 1000000 in
-- Five whole loads and one whole store: the store covers the buffer, so the buffer ends at the payload of what was loaded.
theorem tile_triple2 (c : Dev nD) (E : Set ℕ) (i : grid2.Coords)
    (arg0 : Memref sig .tc .vmem S5000x64 .f32) (harg0 : arg0.IsWhole) (arg1 : Memref sig .tc .vmem S5000x64 .f32) (harg1 : arg1.IsWhole)
    (arg2 : Memref sig .tc .vmem S64x64 .f32) (harg2 : arg2.IsWhole) (arg3 : Memref sig .tc .vmem S64x64 .f32) (harg3 : arg3.IsWhole)
    (arg4 : Memref sig .tc .vmem S1x64 .f32) (harg4 : arg4.IsWhole) (arg5 : Memref sig .tc .vmem S5000x64 .f32) (harg5 : arg5.IsWhole)
    (x0 x1 : Vec F S5000x64 .f32) (x2 x3 : Vec F S64x64 .f32) (x4 : Vec F S1x64 .f32) (R₁ R₂ : sProp 𝕄) :
    iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d))
      ⊢ wp frame (wpE (defs₀ (F := F)) Variants.none c none) E (cc2__graph_conv_kernel i arg0 harg0 arg1 harg1 arg2 harg2 arg3 harg3 arg4 harg4 arg5 harg5)
          (fun _ => iprop(R₁ ∗ R₂ ∗ owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4))) := by
  simp only [cc2__graph_conv_kernel_eq_skeleton]; unfold cc2__graph_conv_kernel_skel
  unfold owns
  iintro ⟨HR₁, HR₂, ⟨%f0, %hf0, H0⟩, ⟨%f1, %hf1, H1⟩, ⟨%f2, %hf2, H2⟩, ⟨%f3, %hf3, H3⟩, ⟨%f4, %hf4, H4⟩, ⟨%d5, %f5, -, H5⟩⟩
  subst hf0 hf1 hf2 hf3 hf4
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  have hz : (![0, 0] : Fin 2 → Nat) = fun _ => 0 := by decide
  rw [View.read_writes_eq_canon _ _ _ fun y => ⟨_, List.mem_cons_self .., View.mem_set_unit_zero hz inb_S5000x64_S5000x64_0_0 y⟩,
    View.canon_unit_zero hz]
  simp only [View.readAt_eq_ld, View.ld_unit_zero (S := S5000x64) hz, View.ld_unit_zero (S := S64x64) hz, View.ld_unit_zero (S := S1x64) hz]
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_0, before2_1, before2_2, before2_3, before2_4]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (tile_triple2 c Set.univ _ _ _ _ _ _ _ _ _ _ _ _ _ (iblk2 V c 0 t) (iblk2 V c 1 t) (iblk2 V c 2 t) (iblk2 V c 3 t) (iblk2 V c 4 t)
    ((dat2 V c).Φ t.castSucc) ((dat2 V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

end Conv2

end Cert.KernelIdeal.Hand

end
-- ==== Proof.KI.Bn3.lean ====
import proofs.«401110_j833223655738_3_alg».proof.Proof.KI.Bn1

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- Regions 1 and 3 run one body: the same operations on the same shapes.
theorem cc3_eq_cc1 : @cc3__bn_relu_kernel F _ = @cc1__bn_relu_kernel F _ := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

-- The input buffers hold their blocks, so region 1's triple applies; the invariant and the debt pass through.
theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl, cc3_eq_cc1]
  iintro ⟨HΦ, Hdebt, ⟨%d0, Hh⟩, ⟨%d1, Hm⟩, ⟨%d2, Hv⟩, ⟨%d3, Hg⟩, ⟨%d4, Hb⟩, ⟨%d5, Ho⟩⟩
  iapply (bn_relu_body1 c Set.univ (grid3.coords t) _ _ _ _ _ _ _ _ _ _ _ _
    (iblk3 V c 0 t) (iblk3 V c 1 t) (iblk3 V c 2 t) (iblk3 V c 3 t) (iblk3 V c 4 t) _)
  isplitl [Hh]; · iexact Hh
  isplitl [Hm]; · iexact Hm
  isplitl [Hv]; · iexact Hv
  isplitl [Hg]; · iexact Hg
  isplitl [Hb]; · iexact Hb
  isplitl [Ho]; · iexists _; iexact Ho
  iintro ⟨Hh, Hm, Hv, Hg, Hb, Ho⟩
  isplitl [HΦ]; · iexact HΦ
  isplitl [Hdebt]; · iexact Hdebt
  isplitl [Hh]; · iexact Hh
  isplitl [Hm]; · iexact Hm
  isplitl [Hv]; · iexact Hv
  isplitl [Hg]; · iexact Hg
  isplitl [Hb]; · iexact Hb
  iexact Ho

end Cert.KernelIdeal.Hand
-- ==== Proof.KI.Conv4.lean ====
import proofs.«401110_j833223655738_3_alg».proof.Proof.KI.Conv2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Conv4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

-- Regions 2 and 4 run one body: the same operations on the same shapes.
theorem cc4_eq_cc2 : @cc4__graph_conv_kernel F _ = @cc2__graph_conv_kernel F _ := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out2_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl

-- The input buffers hold their blocks, so region 2's triple applies, carrying the invariant and the debt across.
theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl, cc4_eq_cc2]
  iintro ⟨HΦ, Ho, ⟨%d0, H0⟩, ⟨%d1, H1⟩, ⟨%d2, H2⟩, ⟨%d3, H3⟩, ⟨%d4, H4⟩, ⟨%d5, H5⟩⟩
  iapply (tile_triple2 c Set.univ _ _ _ _ _ _ _ _ _ _ _ _ _ (iblk4 V c 0 t) (iblk4 V c 1 t) (iblk4 V c 2 t) (iblk4 V c 3 t) (iblk4 V c 4 t)
    ((dat4 V c).Φ t.castSucc) ((dat4 V c).owesAt () t.castSucc))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; iexact H5

end Conv4

end Cert.KernelIdeal.Hand

end
-- ==== Proof.KI.Pool5Base.lean ====
import proofs.«401110_j833223655738_3_alg».proof.Proof.Gen.KernelIdeal.Launch
import proofs.«401110_j833223655738_3_alg».proof.Proof.Gen.KernelIdeal.Skeleton
import proofs.«401110_j833223655738_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev isFirst (i : grid5.Coords) : Prop :=
  (Scalar.cmpi .ne (Scalar.extui (Scalar.cmpi .eq (BitVec.ofNat 32 (i 0).val) 0#32)) 0#32) = 1#1

abbrev isLast (i : grid5.Coords) : Prop := k5_cond2 i = 1#1

theorem isFirst_iff : ∀ t : Fin cfg5.N, isFirst (grid5.coords t) ↔ t.val = 0 :=
  (by decide +kernel : ∀ t : Fin grid5.N, isFirst (grid5.coords t) ↔ t.val = 0)
theorem isLast_iff : ∀ t : Fin cfg5.N, isLast (grid5.coords t) ↔ t.val = 9 :=
  (by decide +kernel : ∀ t : Fin grid5.N, isLast (grid5.coords t) ↔ t.val = 9)

theorem out_idle : ∀ t : Fin cfg5.N, t.val ≠ 9 → cfg5.idle 5 (grid5.coords t) = true ∧ (cfg5.win 5).flush t = false := by decide +kernel

theorem out_live : ∀ t : Fin cfg5.N, t.val = 9 → cfg5.idle 5 (grid5.coords t) = false := by decide +kernel

abbrev accM : Memref sig .tc .vmem S256x64 .f32 := Memref.whole cc5_scratch0

abbrev others (c : Dev nD) : sProp 𝕄 :=
  Pipeline.scopedRestBut (Ix := Unit) (Name := ℕ) (U := UR sig nD τ) (Lvl := ℕ) (Val := Elt F) spec5 c [cc5_scratch0]

theorem inv_split (c : Dev nD) :
    (Pipeline.ΦA spec5 c : sProp 𝕄)
      = iprop(iprop(iprop(∃ d, owns (c : Thread nD τ) accM fullShare d) ∗ others (F := F) c) ∗ (∃ r, prngReg c r)) := by
  unfold Pipeline.ΦA; rw [scopedRest5_split]; simp only [accM, owns_whole]; try rfl

section Whole
variable {κ : Kind} {sp : Space} {S : Shape} {e : EltTy}

theorem load_whole (m : Memref sig κ sp S e) (h : m.IsWhole) {off : Fin S.rank → ℕ} (hz : off = fun _ => 0)
    (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

theorem read_last_whole (v : View sig κ sp S e) (f : v.ty.Contents (Elt F)) {off : Fin S.rank → ℕ} (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

theorem zz : (![0, 0] : Fin 2 → ℕ) = fun _ => 0 := by funext a; fin_cases a <;> rfl

end Cert.KernelIdeal.Hand

end
-- ==== Proof.KI.Pool5Acc.lean ====
import proofs.«401110_j833223655738_3_alg».proof.Proof.KI.Pool5Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The accumulator after tile n: S₀ = 0 + P₀, Sₙ = Sₙ₋₁ + Pₙ, with Pₙ the n-th tile's per-graph sums.
def acc5 (c : Dev nD) : (n : ℕ) → n < cfg5.N → Vec F S256x64 .f32
  | 0, hn => k5_pay2 (iblk5 V c 1 ⟨0, hn⟩) (iblk5 V c 0 ⟨0, hn⟩) k5_pay1
  | n + 1, hn => k5_pay2 (iblk5 V c 1 ⟨n + 1, hn⟩) (iblk5 V c 0 ⟨n + 1, hn⟩) (acc5 c n (Nat.lt_of_succ_lt hn))

def outsAt5 (c : Dev nD) (n : ℕ) (hn : n < cfg5.N) : Vec F S256x2 .f32 × Vec F S256x64 .f32 :=
  (k5_pay3 (acc5 V c n hn) (iblk5 V c 2 ⟨n, hn⟩) (iblk5 V c 3 ⟨n, hn⟩) (iblk5 V c 4 ⟨n, hn⟩), acc5 V c n hn)

theorem scratch5_A (c : Dev nD) (t : Fin cfg5.N) (h : t.val = 0) :
    (outsAt5 V c t.val t.isLt).2 = k5_pay2 (iblk5 V c 1 t) (iblk5 V c 0 t) k5_pay1 := by
  obtain ⟨n, hn⟩ := t
  obtain rfl : n = 0 := h
  rfl

theorem scratch5_BC (c : Dev nD) (t : Fin cfg5.N) (h : 1 ≤ t.val) :
    (outsAt5 V c t.val t.isLt).2
      = k5_pay2 (iblk5 V c 1 t) (iblk5 V c 0 t) (outsAt5 V c (t.val - 1) (Nat.lt_of_le_of_lt (Nat.sub_le _ _) t.isLt)).2 := by
  obtain ⟨n, hn⟩ := t
  cases n with
  | zero => exact absurd h (Nat.not_succ_le_zero 0)
  | succ n => rfl

theorem out5_C (c : Dev nD) (t : Fin cfg5.N) (h : t.val = 9) :
    (outsAt5 V c t.val t.isLt).1 = k5_pay3 (outsAt5 V c t.val t.isLt).2 (iblk5 V c 2 t) (iblk5 V c 3 t) (iblk5 V c 4 t) := rfl

end Cert.KernelIdeal.Hand

end
-- ==== Proof.KI.Pool5First.lean ====
import proofs.«401110_j833223655738_3_alg».proof.Proof.KI.Pool5Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem pool_first (c : Dev nD) (E : Set ℕ) (i : grid5.Coords)
    (a1 : Memref sig .tc .vmem S5000x64 .f32) (h1 : a1.IsWhole) (a2 : Memref sig .tc .vmem S5000x1 .i32) (h2 : a2.IsWhole)
    (a3 : Memref sig .tc .vmem S256x1 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (a7 : Memref sig .tc .vmem S256x64 .f32) (h7 : a7.IsWhole)
    (hF : isFirst i) (hL : ¬isLast i)
    (xh : Vec F S5000x64 .f32) (xb : Vec F S5000x1 .i32) (K : PUnit → sProp 𝕄) :
    iprop(owns (c : Thread nD τ) a1 fullShare xh ∗ owns (c : Thread nD τ) a2 fullShare xb ∗ (∃ d, owns (c : Thread nD τ) a7 fullShare d)
        ∗ (iprop(owns (c : Thread nD τ) a1 fullShare xh ∗ owns (c : Thread nD τ) a2 fullShare xb
            ∗ owns (c : Thread nD τ) a7 fullShare (k5_pay2 xb xh k5_pay1)) -∗ K ⟨⟩))
      ⊢ wp frame (wpE (defs₀ (F := F)) Variants.none c none) E
          (cc5__pool_linear_kernel i a1 h1 a2 h2 a3 h3 a4 h4 a5 h5 a6 h6 a7 h7) K := by
  rw [cc5__pool_linear_kernel_eq_skeleton]; unfold cc5__pool_linear_kernel_skel
  unfold owns
  iintro ⟨⟨%f1, %e1, H1⟩, ⟨%f2, %e2, H2⟩, ⟨%d7, %f7, -, H7⟩, Hk⟩
  obtain rfl := h1.eq_unread e1; obtain rfl := h2.eq_unread e2
  sl_exec (disch := first | exact hF | exact hL)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H7
  ipureintro
  sl_unfold_words
  rw [read_last_whole _ _ zz, load_whole a2 h2 zz, load_whole a1 h1 zz, View.readCov_unit_zero (S := S256x64) _ zz]

end Cert.KernelIdeal.Hand

end
-- ==== Proof.KI.Pool5Mid.lean ====
import proofs.«401110_j833223655738_3_alg».proof.Proof.KI.Pool5Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem pool_mid (c : Dev nD) (E : Set ℕ) (i : grid5.Coords)
    (a1 : Memref sig .tc .vmem S5000x64 .f32) (h1 : a1.IsWhole) (a2 : Memref sig .tc .vmem S5000x1 .i32) (h2 : a2.IsWhole)
    (a3 : Memref sig .tc .vmem S256x1 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (a7 : Memref sig .tc .vmem S256x64 .f32) (h7 : a7.IsWhole)
    (hF : ¬isFirst i) (hL : ¬isLast i)
    (xh : Vec F S5000x64 .f32) (xb : Vec F S5000x1 .i32) (xa : Vec F S256x64 .f32) (K : PUnit → sProp 𝕄) :
    iprop(owns (c : Thread nD τ) a1 fullShare xh ∗ owns (c : Thread nD τ) a2 fullShare xb ∗ owns (c : Thread nD τ) a7 fullShare xa
        ∗ (iprop(owns (c : Thread nD τ) a1 fullShare xh ∗ owns (c : Thread nD τ) a2 fullShare xb
            ∗ owns (c : Thread nD τ) a7 fullShare (k5_pay2 xb xh xa)) -∗ K ⟨⟩))
      ⊢ wp frame (wpE (defs₀ (F := F)) Variants.none c none) E
          (cc5__pool_linear_kernel i a1 h1 a2 h2 a3 h3 a4 h4 a5 h5 a6 h6 a7 h7) K := by
  rw [cc5__pool_linear_kernel_eq_skeleton]; unfold cc5__pool_linear_kernel_skel
  unfold owns
  iintro ⟨⟨%f1, %e1, H1⟩, ⟨%f2, %e2, H2⟩, ⟨%f7, %e7, H7⟩, Hk⟩
  obtain rfl := h1.eq_unread e1; obtain rfl := h2.eq_unread e2; obtain rfl := h7.eq_unread e7
  sl_exec (disch := first | exact hF | exact hL)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H7
  ipureintro
  sl_unfold_words
  rw [read_last_whole _ _ zz, load_whole a2 h2 zz, load_whole a1 h1 zz, load_whole a7 h7 zz]

end Cert.KernelIdeal.Hand

end
-- ==== Proof.KI.Pool5Last.lean ====
import proofs.«401110_j833223655738_3_alg».proof.Proof.KI.Pool5Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

theorem pool_last (c : Dev nD) (E : Set ℕ) (i : grid5.Coords)
    (a1 : Memref sig .tc .vmem S5000x64 .f32) (h1 : a1.IsWhole) (a2 : Memref sig .tc .vmem S5000x1 .i32) (h2 : a2.IsWhole)
    (a3 : Memref sig .tc .vmem S256x1 .f32) (h3 : a3.IsWhole) (a4 : Memref sig .tc .vmem S64x2 .f32) (h4 : a4.IsWhole)
    (a5 : Memref sig .tc .vmem S1x2 .f32) (h5 : a5.IsWhole) (a6 : Memref sig .tc .vmem S256x2 .f32) (h6 : a6.IsWhole)
    (a7 : Memref sig .tc .vmem S256x64 .f32) (h7 : a7.IsWhole)
    (hF : ¬isFirst i) (hL : isLast i)
    (xh : Vec F S5000x64 .f32) (xb : Vec F S5000x1 .i32) (xc : Vec F S256x1 .f32) (xw : Vec F S64x2 .f32) (xl : Vec F S1x2 .f32)
    (xa : Vec F S256x64 .f32) (K : PUnit → sProp 𝕄) :
    iprop(owns (c : Thread nD τ) a1 fullShare xh ∗ owns (c : Thread nD τ) a2 fullShare xb ∗ owns (c : Thread nD τ) a3 fullShare xc
        ∗ owns (c : Thread nD τ) a4 fullShare xw ∗ owns (c : Thread nD τ) a5 fullShare xl ∗ (∃ d, owns (c : Thread nD τ) a6 fullShare d)
        ∗ owns (c : Thread nD τ) a7 fullShare xa
        ∗ (iprop(owns (c : Thread nD τ) a1 fullShare xh ∗ owns (c : Thread nD τ) a2 fullShare xb ∗ owns (c : Thread nD τ) a3 fullShare xc
            ∗ owns (c : Thread nD τ) a4 fullShare xw ∗ owns (c : Thread nD τ) a5 fullShare xl
            ∗ owns (c : Thread nD τ) a6 fullShare (k5_pay3 (k5_pay2 xb xh xa) xc xw xl)
            ∗ owns (c : Thread nD τ) a7 fullShare (k5_pay2 xb xh xa)) -∗ K ⟨⟩))
      ⊢ wp frame (wpE (defs₀ (F := F)) Variants.none c none) E
          (cc5__pool_linear_kernel i a1 h1 a2 h2 a3 h3 a4 h4 a5 h5 a6 h6 a7 h7) K := by
  rw [cc5__pool_linear_kernel_eq_skeleton]; unfold cc5__pool_linear_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%f7, %e7, H7⟩, Hk⟩
  obtain rfl := h1.eq_unread e1; obtain rfl := h2.eq_unread e2; obtain rfl := h3.eq_unread e3
  obtain rfl := h4.eq_unread e4; obtain rfl := h5.eq_unread e5; obtain rfl := h7.eq_unread e7
  sl_exec (disch := first | exact hF | exact hL)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [read_last_whole _ _ zz, load_whole a3 h3 zz, load_whole a4 h4 zz, load_whole a5 h5 zz, View.readCov_unit_zero (S := S256x64) _ zz,
      load_whole a2 h2 zz, load_whole a1 h1 zz, load_whole a7 h7 zz]
  iexists _; isplitr
  swap; · iexact H7
  ipureintro
  sl_unfold_words
  rw [read_last_whole _ _ zz, load_whole a2 h2 zz, load_whole a1 h1 zz, load_whole a7 h7 zz]

end Cert.KernelIdeal.Hand

end
-- ==== Proof.KI.Pool5.lean ====
import proofs.«401110_j833223655738_3_alg».proof.Proof.KI.Pool5Acc
import proofs.«401110_j833223655738_3_alg».proof.Proof.KI.Pool5First
import proofs.«401110_j833223655738_3_alg».proof.Proof.KI.Pool5Mid
import proofs.«401110_j833223655738_3_alg».proof.Proof.KI.Pool5Last

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The invariant between tiles: the accumulator at the sums so far (before the first tile, at anything).
def PhiS5 (c : Dev nD) : (n : ℕ) → n ≤ cfg5.N → sProp 𝕄
  | 0, _ => Pipeline.ΦA spec5 c
  | n + 1, hn => iprop(iprop(owns (c : Thread nD τ) accM fullShare (outsAt5 V c n hn).2 ∗ others (F := F) c) ∗ (∃ r, prngReg c r))

theorem PhiS5_first (c : Dev nD) (n : ℕ) (h : n ≤ cfg5.N) (hz : n = 0) : PhiS5 V c n h = Pipeline.ΦA spec5 c := by
  subst hz; rfl

theorem PhiS5_later (c : Dev nD) (n : ℕ) (h : n ≤ cfg5.N) (hz : n ≠ 0) :
    PhiS5 V c n h = iprop(iprop(owns (c : Thread nD τ) accM fullShare (outsAt5 V c (n - 1) (by omega)).2 ∗ others (F := F) c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) : (dat5 V c).after 5 t = (outsAt5 V c t.val t.isLt).1 := by dsimp only [dat5]

theorem Phi_at (c : Dev nD) (t : Fin cfg5.N) : (dat5 V c).Φ t.castSucc = PhiS5 V c t.val (Nat.le_of_lt t.isLt) := by
  dsimp only [dat5]; simp only [Fin.coe_castSucc]

theorem Phi_next (c : Dev nD) (t : Fin cfg5.N) :
    (dat5 V c).Φ t.succ
      = iprop(iprop(owns (c : Thread nD τ) accM fullShare (outsAt5 V c t.val t.isLt).2 ∗ others (F := F) c) ∗ (∃ r, prngReg c r)) := rfl

theorem found5_0 (c : Dev nD) (t : Fin cfg5.N) (d) : (dat5 V c).before 0 t d = iblk5 V c 0 t := ((dat5 V c).before_in_eq_fetched 0 rfl (fun _ => rfl) (fun _ _ _ => rfl) (fun _ => rfl) t d).trans rfl
theorem found5_1 (c : Dev nD) (t : Fin cfg5.N) (d) : (dat5 V c).before 1 t d = iblk5 V c 1 t := ((dat5 V c).before_in_eq_fetched 1 rfl (fun _ => rfl) (fun _ _ _ => rfl) (fun _ => rfl) t d).trans rfl
theorem found5_2 (c : Dev nD) (t : Fin cfg5.N) (d) : (dat5 V c).before 2 t d = iblk5 V c 2 t := ((dat5 V c).before_in_eq_fetched 2 rfl (fun _ => rfl) (fun _ _ _ => rfl) (fun _ => rfl) t d).trans rfl
theorem found5_3 (c : Dev nD) (t : Fin cfg5.N) (d) : (dat5 V c).before 3 t d = iblk5 V c 3 t := ((dat5 V c).before_in_eq_fetched 3 rfl (fun _ => rfl) (fun _ _ _ => rfl) (fun _ => rfl) t d).trans rfl
theorem found5_4 (c : Dev nD) (t : Fin cfg5.N) (d) : (dat5 V c).before 4 t d = iblk5 V c 4 t := ((dat5 V c).before_in_eq_fetched 4 rfl (fun _ => rfl) (fun _ _ _ => rfl) (fun _ => rfl) t d).trans rfl

def inputs5 (c : Dev nD) (t : Fin cfg5.N) : sProp 𝕄 :=
  iprop(owns (c : Thread nD τ) (st5_0 t) fullShare (iblk5 V c 0 t) ∗ owns (c : Thread nD τ) (st5_1 t) fullShare (iblk5 V c 1 t)
    ∗ owns (c : Thread nD τ) (st5_2 t) fullShare (iblk5 V c 2 t) ∗ owns (c : Thread nD τ) (st5_3 t) fullShare (iblk5 V c 3 t)
    ∗ owns (c : Thread nD τ) (st5_4 t) fullShare (iblk5 V c 4 t))

def pre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def post5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t
    ∗ (dat5 V c).leavesExact 3 t ∗ (dat5 V c).leavesExact 4 t ∗ (dat5 V c).leavesExact 5 t)

theorem pre5_open (c : Dev nD) (t : Fin cfg5.N) :
    pre5 V c t ⊢ iprop(PhiS5 V c t.val (Nat.le_of_lt t.isLt) ∗ (dat5 V c).owesAt () t.castSucc ∗ inputs5 V c t
      ∗ (∃ d, owns (c : Thread nD τ) (st5_5 t) fullShare ((dat5 V c).before 5 t d))) := by
  unfold pre5 inputs5
  simp only [found5_0, found5_1, found5_2, found5_3, found5_4]
  rw [Phi_at]
  iintro ⟨HΦ, Ho, ⟨%d0, H0⟩, ⟨%d1, H1⟩, ⟨%d2, H2⟩, ⟨%d3, H3⟩, ⟨%d4, H4⟩, H5⟩
  isplitl [HΦ]; · iexact HΦ
  isplitl [Ho]; · iexact Ho
  isplitr [H5]
  · isplitl [H0]; · iexact H0
    isplitl [H1]; · iexact H1
    isplitl [H2]; · iexact H2
    isplitl [H3]; · iexact H3
    iexact H4
  iexact H5

theorem inputs5_close (c : Dev nD) (t : Fin cfg5.N) (R : sProp 𝕄) :
    iprop(inputs5 V c t ∗ R) ⊢ iprop((dat5 V c).leavesExact 0 t ∗ (dat5 V c).leavesExact 1 t ∗ (dat5 V c).leavesExact 2 t
      ∗ (dat5 V c).leavesExact 3 t ∗ (dat5 V c).leavesExact 4 t ∗ R) := by
  unfold inputs5
  iintro ⟨⟨H0, H1, H2, H3, H4⟩, HR⟩
  isplitl [H0]; · iexact H0
  isplitl [H1]; · iexact H1
  isplitl [H2]; · iexact H2
  isplitl [H3]; · iexact H3
  isplitl [H4]; · iexact H4
  iexact HR

theorem step_first (c : Dev nD) (t : Fin cfg5.N) (h0 : t.val = 0) :
    pre5 V c t ⊢ wp frame (wpE (defs₀ (F := F)) Variants.none c none) Set.univ (bodyAt5 t) (fun _ => post5 V c t) := by
  have hF : isFirst (grid5.coords t) := (isFirst_iff t).mpr h0
  have hL : ¬isLast (grid5.coords t) := fun h => by have := (isLast_iff t).mp h; omega
  obtain ⟨hid, hfl⟩ := out_idle t (by omega)
  refine (pre5_open V c t).trans ?_
  unfold post5 bodyAt5
  rw [show (dat5 V c).owesAt () t.succ = (dat5 V c).owesAt () t.castSucc from rfl, Phi_next,
    Dat.leavesExact_idle (dat5 V c) 5 t hid hfl, scratch5_A V c t h0, PhiS5_first V c _ _ h0, inv_split]
  unfold inputs5
  iintro ⟨⟨⟨HS, Hr⟩, Hg⟩, Ho, ⟨H0, H1, H2, H3, H4⟩, H5⟩
  iapply (pool_first c Set.univ (grid5.coords t) _ _ _ _ _ _ _ _ _ _ _ _ _ _ hF hL (iblk5 V c 0 t) (iblk5 V c 1 t) _)
  isplitl [H0]; · iexact H0
  isplitl [H1]; · iexact H1
  isplitl [HS]; · iexact HS
  iintro ⟨H0, H1, HS⟩
  isplitl [HS Hr Hg]
  · isplitl [HS Hr]
    · isplitl [HS]; · iexact HS
      iexact Hr
    iexact Hg
  isplitl [Ho]; · iexact Ho
  iapply (inputs5_close V c t _)
  isplitr [H5]
  swap; · iexact H5
  unfold inputs5
  isplitl [H0]; · iexact H0
  isplitl [H1]; · iexact H1
  isplitl [H2]; · iexact H2
  isplitl [H3]; · iexact H3
  iexact H4

theorem step_mid (c : Dev nD) (t : Fin cfg5.N) (h0 : t.val ≠ 0) (h9 : t.val ≠ 9) :
    pre5 V c t ⊢ wp frame (wpE (defs₀ (F := F)) Variants.none c none) Set.univ (bodyAt5 t) (fun _ => post5 V c t) := by
  have hF : ¬isFirst (grid5.coords t) := fun h => h0 ((isFirst_iff t).mp h)
  have hL : ¬isLast (grid5.coords t) := fun h => h9 ((isLast_iff t).mp h)
  obtain ⟨hid, hfl⟩ := out_idle t h9
  refine (pre5_open V c t).trans ?_
  unfold post5 bodyAt5
  rw [show (dat5 V c).owesAt () t.succ = (dat5 V c).owesAt () t.castSucc from rfl, Phi_next,
    Dat.leavesExact_idle (dat5 V c) 5 t hid hfl, scratch5_BC V c t (Nat.pos_of_ne_zero h0), PhiS5_later V c _ _ h0]
  unfold inputs5
  iintro ⟨⟨⟨HS, Hr⟩, Hg⟩, Ho, ⟨H0, H1, H2, H3, H4⟩, H5⟩
  iapply (pool_mid c Set.univ (grid5.coords t) _ _ _ _ _ _ _ _ _ _ _ _ _ _ hF hL (iblk5 V c 0 t) (iblk5 V c 1 t) _ _)
  isplitl [H0]; · iexact H0
  isplitl [H1]; · iexact H1
  isplitl [HS]; · iexact HS
  iintro ⟨H0, H1, HS⟩
  isplitl [HS Hr Hg]
  · isplitl [HS Hr]
    · isplitl [HS]; · iexact HS
      iexact Hr
    iexact Hg
  isplitl [Ho]; · iexact Ho
  iapply (inputs5_close V c t _)
  isplitr [H5]
  swap; · iexact H5
  unfold inputs5
  isplitl [H0]; · iexact H0
  isplitl [H1]; · iexact H1
  isplitl [H2]; · iexact H2
  isplitl [H3]; · iexact H3
  iexact H4

theorem step_last (c : Dev nD) (t : Fin cfg5.N) (h9 : t.val = 9) :
    pre5 V c t ⊢ wp frame (wpE (defs₀ (F := F)) Variants.none c none) Set.univ (bodyAt5 t) (fun _ => post5 V c t) := by
  have h0 : t.val ≠ 0 := by omega
  have hF : ¬isFirst (grid5.coords t) := fun h => h0 ((isFirst_iff t).mp h)
  have hL : isLast (grid5.coords t) := (isLast_iff t).mpr h9
  refine (pre5_open V c t).trans ?_
  unfold post5 bodyAt5
  rw [show (dat5 V c).owesAt () t.succ = (dat5 V c).owesAt () t.castSucc from rfl, Phi_next,
    show (dat5 V c).leavesExact 5 t = owns (c : Thread nD τ) (st5_5 t) fullShare ((dat5 V c).after 5 t) from by
      unfold Dat.leavesExact; rw [out_live t h9],
    after5_5, out5_C V c t h9, scratch5_BC V c t (Nat.pos_of_ne_zero h0), PhiS5_later V c _ _ h0]
  unfold inputs5
  iintro ⟨⟨⟨HS, Hr⟩, Hg⟩, Ho, ⟨H0, H1, H2, H3, H4⟩, ⟨%d5, H5⟩⟩
  iapply (pool_last c Set.univ (grid5.coords t) _ _ _ _ _ _ _ _ _ _ _ _ _ _ hF hL (iblk5 V c 0 t) (iblk5 V c 1 t) (iblk5 V c 2 t)
    (iblk5 V c 3 t) (iblk5 V c 4 t) _ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hr Hg]
  · isplitl [HS Hr]
    · isplitl [HS]; · iexact HS
      iexact Hr
    iexact Hg
  isplitl [Ho]; · iexact Ho
  iapply (inputs5_close V c t _)
  isplitr [H5]
  swap; · iexact H5
  unfold inputs5
  isplitl [H0]; · iexact H0
  isplitl [H1]; · iexact H1
  isplitl [H2]; · iexact H2
  isplitl [H3]; · iexact H3
  iexact H4

-- First tile, middle tiles and last tile are the body's three control cases.
theorem body_obligation5 (c : Dev nD) : BodyObligation (dat5 (F := F) V c) (defs₀ (F := F)) Variants.none () Set.univ := fun t => by
  rw [bigSep_W5, bigSep_W5]
  by_cases h0 : t.val = 0
  · exact step_first V c t h0
  · by_cases h9 : t.val = 9
    · exact step_last V c t h9
    · exact step_mid V c t h0 h9

theorem hin5 (c : Dev nD) : Pipeline.ΦA spec5 c ⊢ (dat5 V c).Φ 0 := by
  rw [show (dat5 V c).Φ 0 = PhiS5 V c 0 (Nat.zero_le _) from rfl, PhiS5_first V c 0 _ rfl]

theorem hout5 (c : Dev nD) : (dat5 V c).Φ (Fin.last cfg5.N) ⊢ Pipeline.ΦA spec5 c := by
  have hN : cfg5.N = 10 := N_5
  rw [show (dat5 V c).Φ (Fin.last cfg5.N) = PhiS5 V c (Fin.last cfg5.N).val (Nat.le_of_lt_succ (Fin.last cfg5.N).isLt) from rfl,
    PhiS5_later V c _ _ (by rw [Fin.val_last]; omega), inv_split]
  iintro ⟨⟨HS, Hr⟩, Hg⟩
  isplitr [Hg]
  swap; · iexact Hg
  isplitl [HS]
  · iexists _; iexact HS
  iexact Hr

end Cert.KernelIdeal.Hand

end
-- ==== Proof.KI.Regs.lean ====
import proofs.«401110_j833223655738_3_alg».proof.Proof.LibRegion
import proofs.«401110_j833223655738_3_alg».proof.Proof.KI.Outs
import proofs.«401110_j833223655738_3_alg».proof.Proof.KI.Conv0
import proofs.«401110_j833223655738_3_alg».proof.Proof.KI.Bn1
import proofs.«401110_j833223655738_3_alg».proof.Proof.KI.Conv2
import proofs.«401110_j833223655738_3_alg».proof.Proof.KI.Bn3
import proofs.«401110_j833223655738_3_alg».proof.Proof.KI.Conv4
import proofs.«401110_j833223655738_3_alg».proof.Proof.KI.Pool5

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

-- Each region's result, computed over the results of the regions before it.
def res0 : Res F main_v20 := fun c => (dat0 (atRefs (V1 m)) c).arrAt 5 cfg0.N
abbrev outs0 : Outs (F := F) := outsOf m (res0 m) (atLaunch m _) (atLaunch m _) (atLaunch m _) (atLaunch m _) (atLaunch m _)

def res1 : Res F main_v29 := fun c => (dat1 (atRefs (V5 m (outs0 m))) c).arrAt 5 cfg1.N
abbrev outs1 : Outs (F := F) := outsOf m (res0 m) (res1 m) (atLaunch m _) (atLaunch m _) (atLaunch m _) (atLaunch m _)

def res2 : Res F main_v46 := fun c => (dat2 (atRefs (V7 m (outs1 m))) c).arrAt 5 cfg2.N
abbrev outs2 : Outs (F := F) := outsOf m (res0 m) (res1 m) (res2 m) (atLaunch m _) (atLaunch m _) (atLaunch m _)

def res3 : Res F main_v55 := fun c => (dat3 (atRefs (V11 m (outs2 m))) c).arrAt 5 cfg3.N
abbrev outs3 : Outs (F := F) := outsOf m (res0 m) (res1 m) (res2 m) (res3 m) (atLaunch m _) (atLaunch m _)

def res4 : Res F main_v72 := fun c => (dat4 (atRefs (V13 m (outs3 m))) c).arrAt 5 cfg4.N
abbrev outs4 : Outs (F := F) := outsOf m (res0 m) (res1 m) (res2 m) (res3 m) (res4 m) (atLaunch m _)

def res5 : Res F main_v80 := fun c => (dat5 (atRefs (V15 m (outs4 m))) c).arrAt 5 cfg5.N

abbrev outs : Outs (F := F) := outsOf m (res0 m) (res1 m) (res2 m) (res3 m) (res4 m) (res5 m)

variable (c : Dev nD)

theorem outs_2 : outs m 2 main_v20 c = res0 m c := outsOf_2 ..
theorem outs_6 : outs m 6 main_v29 c = res1 m c := outsOf_6 ..
theorem outs_8 : outs m 8 main_v46 c = res2 m c := outsOf_8 ..
theorem outs_12 : outs m 12 main_v55 c = res3 m c := outsOf_12 ..
theorem outs_14 : outs m 14 main_v72 c = res4 m c := outsOf_14 ..
theorem outs_16 : outs m 16 main_v80 c = res5 m c := outsOf_16 ..

-- A valuation reads only the results of the regions before it, so the full family may stand for the partial one.
theorem V5_outs : V5 m (outs m) c = V5 m (outs0 m) c := by
  simp only [V5, V4, V3, V2, outsOf_2]
theorem V7_outs : V7 m (outs m) c = V7 m (outs1 m) c := by
  simp only [V7, V6, V5, V4, V3, V2, outsOf_2, outsOf_6]
theorem V11_outs : V11 m (outs m) c = V11 m (outs2 m) c := by
  simp only [V11, V10, V9, V8, V7, V6, V5, V4, V3, V2, outsOf_2, outsOf_6, outsOf_8]
theorem V13_outs : V13 m (outs m) c = V13 m (outs3 m) c := by
  simp only [V13, V12, V11, V10, V9, V8, V7, V6, V5, V4, V3, V2, outsOf_2, outsOf_6, outsOf_8, outsOf_12]
theorem V15_outs : V15 m (outs m) c = V15 m (outs4 m) c := by
  simp only [V15, V14, V13, V12, V11, V10, V9, V8, V7, V6, V5, V4, V3, V2, outsOf_2, outsOf_6, outsOf_8, outsOf_12, outsOf_14]

def pdats : (p : Fin 6) → (c : Dev nD) → Dat τ (Elt F) Unit ℕ (UR sig nD τ) ℕ (cfgs p) c
  | ⟨0, _⟩ => fun c => dat0 (atRefs (V1 m)) c
  | ⟨1, _⟩ => fun c => dat1 (atRefs (V5 m (outs0 m))) c
  | ⟨2, _⟩ => fun c => dat2 (atRefs (V7 m (outs1 m))) c
  | ⟨3, _⟩ => fun c => dat3 (atRefs (V11 m (outs2 m))) c
  | ⟨4, _⟩ => fun c => dat4 (atRefs (V13 m (outs3 m))) c
  | ⟨5, _⟩ => fun c => dat5 (atRefs (V15 m (outs4 m))) c

theorem noflush0 : ∀ w : Fin cfg0.W, w ≠ 5 → ∀ t : Fin cfg0.N, (cfg0.win w).flush t = false :=
  (by decide +kernel : ∀ w : Fin 6, w ≠ 5 → ∀ t : Fin grid0.N, (cfg0.win w).flush t = false)
theorem arr_ne0 : ∀ w : Fin cfg0.W, w ≠ 5 → Pipeline.arrRef spec0 w ≠ Pipeline.arrRef spec0 5 := by decide
theorem noflush1 : ∀ w : Fin cfg1.W, w ≠ 5 → ∀ t : Fin cfg1.N, (cfg1.win w).flush t = false :=
  (by decide +kernel : ∀ w : Fin 6, w ≠ 5 → ∀ t : Fin grid1.N, (cfg1.win w).flush t = false)
theorem arr_ne1 : ∀ w : Fin cfg1.W, w ≠ 5 → Pipeline.arrRef spec1 w ≠ Pipeline.arrRef spec1 5 := by decide
theorem noflush2 : ∀ w : Fin cfg2.W, w ≠ 5 → ∀ t : Fin cfg2.N, (cfg2.win w).flush t = false :=
  (by decide +kernel : ∀ w : Fin 6, w ≠ 5 → ∀ t : Fin grid2.N, (cfg2.win w).flush t = false)
theorem arr_ne2 : ∀ w : Fin cfg2.W, w ≠ 5 → Pipeline.arrRef spec2 w ≠ Pipeline.arrRef spec2 5 := by decide
theorem noflush3 : ∀ w : Fin cfg3.W, w ≠ 5 → ∀ t : Fin cfg3.N, (cfg3.win w).flush t = false :=
  (by decide +kernel : ∀ w : Fin 6, w ≠ 5 → ∀ t : Fin grid3.N, (cfg3.win w).flush t = false)
theorem arr_ne3 : ∀ w : Fin cfg3.W, w ≠ 5 → Pipeline.arrRef spec3 w ≠ Pipeline.arrRef spec3 5 := by decide
theorem noflush4 : ∀ w : Fin cfg4.W, w ≠ 5 → ∀ t : Fin cfg4.N, (cfg4.win w).flush t = false :=
  (by decide +kernel : ∀ w : Fin 6, w ≠ 5 → ∀ t : Fin grid4.N, (cfg4.win w).flush t = false)
theorem arr_ne4 : ∀ w : Fin cfg4.W, w ≠ 5 → Pipeline.arrRef spec4 w ≠ Pipeline.arrRef spec4 5 := by decide
theorem noflush5 : ∀ w : Fin cfg5.W, w ≠ 5 → ∀ t : Fin cfg5.N, (cfg5.win w).flush t = false :=
  (by decide +kernel : ∀ w : Fin 6, w ≠ 5 → ∀ t : Fin grid5.N, (cfg5.win w).flush t = false)
theorem arr_ne5 : ∀ w : Fin cfg5.W, w ≠ 5 → Pipeline.arrRef spec5 w ≠ Pipeline.arrRef spec5 5 := by decide

-- Each region takes its entry valuation to the same valuation with its result array replaced.
def reg0 : RegionSeg (pcfgs (F := F)) adm (pdats m) () defs₀ noVar noLev lev0 0 :=
  regOf cfgs defs₀ (pdats m) 0 launch0 (V1 m) (exitVal (V1 m) (pdats m 0) 5)
    (fun c => (body_obligation0 (atRefs (V1 m)) c).loose)
    (fun _ _ => rfl) (fun _ _ => rfl)
    (fun c => (pdats m 0 c).share_full fun _ => rfl)
    (fun c w => A_eq0 (atRefs (V1 m)) c w)
    (fun c => .rfl) (fun c => .rfl)
    (fun c => exit_arrays (V1 m) c (pdats m 0) 5 (fun w => A_eq0 (atRefs (V1 m)) c w) noflush0 arr_ne0)
    (fun c b hb => exit_rest (V1 m) c (pdats m 0) 5 b hb)

def reg1 : RegionSeg (pcfgs (F := F)) adm (pdats m) () defs₀ noVar noLev lev0 1 :=
  regOf cfgs defs₀ (pdats m) 1 launch1 (V5 m (outs0 m)) (exitVal (V5 m (outs0 m)) (pdats m 1) 5)
    (fun c => (body_obligation1 (atRefs (V5 m (outs0 m))) c).loose)
    (fun _ _ => rfl) (fun _ _ => rfl)
    (fun c => (pdats m 1 c).share_full fun _ => rfl)
    (fun c w => A_eq1 (atRefs (V5 m (outs0 m))) c w)
    (fun c => .rfl) (fun c => .rfl)
    (fun c => exit_arrays (V5 m (outs0 m)) c (pdats m 1) 5 (fun w => A_eq1 (atRefs (V5 m (outs0 m))) c w) noflush1 arr_ne1)
    (fun c b hb => exit_rest (V5 m (outs0 m)) c (pdats m 1) 5 b hb)

def reg2 : RegionSeg (pcfgs (F := F)) adm (pdats m) () defs₀ noVar noLev lev0 2 :=
  regOf cfgs defs₀ (pdats m) 2 launch2 (V7 m (outs1 m)) (exitVal (V7 m (outs1 m)) (pdats m 2) 5)
    (fun c => (body_obligation2 (atRefs (V7 m (outs1 m))) c).loose)
    (fun _ _ => rfl) (fun _ _ => rfl)
    (fun c => (pdats m 2 c).share_full fun _ => rfl)
    (fun c w => A_eq2 (atRefs (V7 m (outs1 m))) c w)
    (fun c => .rfl) (fun c => .rfl)
    (fun c => exit_arrays (V7 m (outs1 m)) c (pdats m 2) 5 (fun w => A_eq2 (atRefs (V7 m (outs1 m))) c w) noflush2 arr_ne2)
    (fun c b hb => exit_rest (V7 m (outs1 m)) c (pdats m 2) 5 b hb)

def reg3 : RegionSeg (pcfgs (F := F)) adm (pdats m) () defs₀ noVar noLev lev0 3 :=
  regOf cfgs defs₀ (pdats m) 3 launch3 (V11 m (outs2 m)) (exitVal (V11 m (outs2 m)) (pdats m 3) 5)
    (fun c => (body_obligation3 (atRefs (V11 m (outs2 m))) c).loose)
    (fun _ _ => rfl) (fun _ _ => rfl)
    (fun c => (pdats m 3 c).share_full fun _ => rfl)
    (fun c w => A_eq3 (atRefs (V11 m (outs2 m))) c w)
    (fun c => .rfl) (fun c => .rfl)
    (fun c => exit_arrays (V11 m (outs2 m)) c (pdats m 3) 5 (fun w => A_eq3 (atRefs (V11 m (outs2 m))) c w) noflush3 arr_ne3)
    (fun c b hb => exit_rest (V11 m (outs2 m)) c (pdats m 3) 5 b hb)

def reg4 : RegionSeg (pcfgs (F := F)) adm (pdats m) () defs₀ noVar noLev lev0 4 :=
  regOf cfgs defs₀ (pdats m) 4 launch4 (V13 m (outs3 m)) (exitVal (V13 m (outs3 m)) (pdats m 4) 5)
    (fun c => (body_obligation4 (atRefs (V13 m (outs3 m))) c).loose)
    (fun _ _ => rfl) (fun _ _ => rfl)
    (fun c => (pdats m 4 c).share_full fun _ => rfl)
    (fun c w => A_eq4 (atRefs (V13 m (outs3 m))) c w)
    (fun c => .rfl) (fun c => .rfl)
    (fun c => exit_arrays (V13 m (outs3 m)) c (pdats m 4) 5 (fun w => A_eq4 (atRefs (V13 m (outs3 m))) c w) noflush4 arr_ne4)
    (fun c b hb => exit_rest (V13 m (outs3 m)) c (pdats m 4) 5 b hb)

def reg5 : RegionSeg (pcfgs (F := F)) adm (pdats m) () defs₀ noVar noLev lev0 5 :=
  regOf cfgs defs₀ (pdats m) 5 launch5 (V15 m (outs4 m)) (exitVal (V15 m (outs4 m)) (pdats m 5) 5)
    (fun c => (body_obligation5 (atRefs (V15 m (outs4 m))) c).loose)
    (fun _ _ => rfl) (fun _ _ => rfl)
    (fun c => (pdats m 5 c).share_full fun _ => rfl)
    (fun c w => A_eq5 (atRefs (V15 m (outs4 m))) c w)
    (fun c => hin5 (atRefs (V15 m (outs4 m))) c) (fun c => hout5 (atRefs (V15 m (outs4 m))) c)
    (fun c => exit_arrays (V15 m (outs4 m)) c (pdats m 5) 5 (fun w => A_eq5 (atRefs (V15 m (outs4 m))) c w) noflush5 arr_ne5)
    (fun c b hb => exit_rest (V15 m (outs4 m)) c (pdats m 5) 5 b hb)

-- That exit valuation is the next valuation of the run.
theorem exit0_eq : exitVal (V1 m) (pdats m 0) 5 c = V2 m (outs m) c := by
  show Function.update _ _ _ = Function.update _ _ _
  rw [outs_2]; rfl
theorem exit1_eq : exitVal (V5 m (outs0 m)) (pdats m 1) 5 c = V6 m (outs m) c := by
  show Function.update _ _ _ = Function.update _ _ _
  rw [V5_outs, outs_6]; rfl
theorem exit2_eq : exitVal (V7 m (outs1 m)) (pdats m 2) 5 c = V8 m (outs m) c := by
  show Function.update _ _ _ = Function.update _ _ _
  rw [V7_outs, outs_8]; rfl
theorem exit3_eq : exitVal (V11 m (outs2 m)) (pdats m 3) 5 c = V12 m (outs m) c := by
  show Function.update _ _ _ = Function.update _ _ _
  rw [V11_outs, outs_12]; rfl
theorem exit4_eq : exitVal (V13 m (outs3 m)) (pdats m 4) 5 c = V14 m (outs m) c := by
  show Function.update _ _ _ = Function.update _ _ _
  rw [V13_outs, outs_14]; rfl
theorem exit5_eq : exitVal (V15 m (outs4 m)) (pdats m 5) 5 c = V16 m (outs m) c := by
  show Function.update _ _ _ = Function.update _ _ _
  rw [V15_outs, outs_16]; rfl

abbrev u₀ : UR sig nD τ := initOf (Pipeline.cells cfgs cellOf_inj) (Pipeline.launchToks cfgs cellOf_inj)

end Cert.KernelIdeal.Hand

end
-- ==== Proof.RI.Terms.lean ====
import proofs.«401110_j833223655738_3_alg».proof.ReferenceIdeal

noncomputable section

namespace Cert.ReferenceIdeal.Terms

open Cert.ReferenceIdeal Idealize.ShloMosaic Idealize.SL.Sem
open Facts₀ Facts

variable {F : FTy → Type} [FloatOps F] [Facts]

-- The source node of every edge.
def rRow0 (ei : (⟨S2x800000, .i32⟩ : BufTy).Contents (Elt F)) :
    (⟨S800000, .i32⟩ : BufTy).Contents (Elt F) :=
  (fun i => shapeCast S800000 ((extractStridedSlice S1x800000 ![0, 0] · slices_S2x800000_S1x800000_0_0) ei) shapeCasts_S1x800000_S800000 i)

-- The destination node of every edge.
def rRow1 (ei : (⟨S2x800000, .i32⟩ : BufTy).Contents (Elt F)) :
    (⟨S800000, .i32⟩ : BufTy).Contents (Elt F) :=
  (fun i => shapeCast S800000 ((extractStridedSlice S1x800000 ![1, 0] · slices_S2x800000_S1x800000_1_0) ei) shapeCasts_S1x800000_S800000 i)

-- Source indices as a column; a negative index is shifted up by the number of nodes.
def rSrc (ei : (⟨S2x800000, .i32⟩ : BufTy).Contents (Elt F)) :
    (⟨S800000x1, .i32⟩ : BufTy).Contents (Elt F) :=
  ((broadcastInDim S800000x1 ![0] bcast_S800000_S800000x1_0) (select ((cmpi .slt) (rRow0 ei) ((broadcastInDim S800000 ![] bcast_S_S800000) (constantI S_ 32 0#32))) (addi (rRow0 ei) ((broadcastInDim S800000 ![] bcast_S_S800000) (constantI S_ 32 50000#32))) (rRow0 ei)))

-- Destination indices as a column.
def rDst (ei : (⟨S2x800000, .i32⟩ : BufTy).Contents (Elt F)) :
    (⟨S800000x1, .i32⟩ : BufTy).Contents (Elt F) :=
  ((broadcastInDim S800000x1 ![0] bcast_S800000_S800000x1_0) (rRow1 ei))

-- Per edge: the source node's row times the edge weight.
def rMsg (ei : (⟨S2x800000, .i32⟩ : BufTy).Contents (Elt F)) (ew : (⟨S800000, .f32⟩ : BufTy).Contents (Elt F)) (h : (⟨S50000x64, .f32⟩ : BufTy).Contents (Elt F)) :
    (⟨S800000x64, .f32⟩ : BufTy).Contents (Elt F) :=
  (mulf ((fun x i => Host.gather gather_S50000x64_S800000x1_S800000x64_1_0_n_n_0_1_164 x i) h (rSrc ei)) ((broadcastInDim S800000x64 ![0, 1] bcast_S800000x1_S800000x64_0_1) ((broadcastInDim S800000x1 ![0] bcast_S800000_S800000x1_0) ew)))

-- The messages summed into their destination rows.
def rAgg (ei : (⟨S2x800000, .i32⟩ : BufTy).Contents (Elt F)) (ew : (⟨S800000, .f32⟩ : BufTy).Contents (Elt F)) (h : (⟨S50000x64, .f32⟩ : BufTy).Contents (Elt F)) :
    (⟨S50000x64, .f32⟩ : BufTy).Contents (Elt F) :=
  ((fun x i u => Host.scatterAdd scatter_S50000x64_S800000x1_S800000x64_1_0_0_1 x i u) ((broadcastInDim S50000x64 ![] bcast_S_S50000x64) (constant S_ .f32 0x00000000#32)) (rDst ei) (rMsg ei ew h))

-- h·Ws + a·Wn + b, the bias along the rows.
def rConv (h : (⟨S50000x64, .f32⟩ : BufTy).Contents (Elt F)) (a : (⟨S50000x64, .f32⟩ : BufTy).Contents (Elt F)) (Ws : (⟨S64x64, .f32⟩ : BufTy).Contents (Elt F)) (Wn : (⟨S64x64, .f32⟩ : BufTy).Contents (Elt F)) (b : (⟨S64, .f32⟩ : BufTy).Contents (Elt F)) :
    (⟨S50000x64, .f32⟩ : BufTy).Contents (Elt F) :=
  (addf (addf ((fun l r => Host.dotGeneral dot_S50000x64_S64x64_S50000x64_1_0_0_1_n_n none l r) h Ws) ((fun l r => Host.dotGeneral dot_S50000x64_S64x64_S50000x64_1_0_0_1_n_n none l r) a Wn)) ((broadcastInDim S50000x64 ![0, 1] bcast_S1x64_S50000x64_0_1) ((broadcastInDim S1x64 ![1] bcast_S64_S1x64_1) b)))

-- Column means over the 50000 rows.
def rMean (h : (⟨S50000x64, .f32⟩ : BufTy).Contents (Elt F)) :
    (⟨S64, .f32⟩ : BufTy).Contents (Elt F) :=
  (Host.divf ((fun x v => Host.reduceAdd x v reducesTo_S50000x64_S64_d0 h_S_) h (constant S_ .f32 0x00000000#32)) ((broadcastInDim S64 ![] bcast_S_S64) (constant S_ .f32 0x47435000#32)))

-- Each row minus the column means.
def rCtr (h : (⟨S50000x64, .f32⟩ : BufTy).Contents (Elt F)) :
    (⟨S50000x64, .f32⟩ : BufTy).Contents (Elt F) :=
  (subf h ((broadcastInDim S50000x64 ![0, 1] bcast_S1x64_S50000x64_0_1) (Host.divf ((broadcastInDim S1x64 ![1] bcast_S64_S1x64_1) ((fun x v => Host.reduceAdd x v reducesTo_S50000x64_S64_d0 h_S_) h (constant S_ .f32 0x00000000#32))) ((broadcastInDim S1x64 ![] bcast_S_S1x64) (constant S_ .f32 0x47435000#32)))))

-- The variance's divisor, 50000 − 0.
def rDof  :
    (⟨S_, .f32⟩ : BufTy).Contents (Elt F) :=
  (subf (constant S_ .f32 0x47435000#32) ((sitofp .f32) (constantI S_ 32 0#32)))

-- Column variances of the centred rows (not-a-number where the divisor is not positive).
def rVar (h : (⟨S50000x64, .f32⟩ : BufTy).Contents (Elt F)) :
    (⟨S64, .f32⟩ : BufTy).Contents (Elt F) :=
  ((fun p a b => select (broadcastInDim S64 ![] bcast_S_S64 p) a b) ((cmpf .ogt) (rDof (F := F)) (constant S_ .f32 0x00000000#32)) (Host.divf ((fun x v => Host.reduceAdd x v reducesTo_S50000x64_S64_d0 h_S_) (mulf (rCtr h) (rCtr h)) (constant S_ .f32 0x00000000#32)) ((broadcastInDim S64 ![] bcast_S_S64) rDof)) ((broadcastInDim S64 ![] bcast_S_S64) (id (constant S_ .f32 0x7FC00000#32))))

-- max(g·(h − mean)·rsqrt(var + ε) + be, 0).
def rBnRelu (h : (⟨S50000x64, .f32⟩ : BufTy).Contents (Elt F)) (mean : (⟨S64, .f32⟩ : BufTy).Contents (Elt F)) (var : (⟨S64, .f32⟩ : BufTy).Contents (Elt F)) (g : (⟨S64, .f32⟩ : BufTy).Contents (Elt F)) (be : (⟨S64, .f32⟩ : BufTy).Contents (Elt F)) :
    (⟨S50000x64, .f32⟩ : BufTy).Contents (Elt F) :=
  (maximumf (addf (mulf (mulf ((broadcastInDim S50000x64 ![0, 1] bcast_S1x64_S50000x64_0_1) ((broadcastInDim S1x64 ![1] bcast_S64_S1x64_1) g)) (subf h ((broadcastInDim S50000x64 ![0, 1] bcast_S1x64_S50000x64_0_1) ((broadcastInDim S1x64 ![1] bcast_S64_S1x64_1) mean)))) ((broadcastInDim S50000x64 ![0, 1] bcast_S1x64_S50000x64_0_1) ((broadcastInDim S1x64 ![1] bcast_S64_S1x64_1) (Host.rsqrt (addf var ((broadcastInDim S64 ![] bcast_S_S64) (constant S_ .f32 0x3727C5AC#32))))))) ((broadcastInDim S50000x64 ![0, 1] bcast_S1x64_S50000x64_0_1) ((broadcastInDim S1x64 ![1] bcast_S64_S1x64_1) be))) ((broadcastInDim S50000x64 ![] bcast_S_S50000x64) (constant S_ .f32 0x00000000#32)))

-- The number of nodes of each graph.
def rCnts (batch : (⟨S50000, .i32⟩ : BufTy).Contents (Elt F)) :
    (⟨S256, .f32⟩ : BufTy).Contents (Elt F) :=
  ((fun x i u => Host.scatterAdd scatter_S256_S50000x1_S50000_n_0_0_1 x i u) ((broadcastInDim S256 ![] bcast_S_S256) (constant S_ .f32 0x00000000#32)) ((broadcastInDim S50000x1 ![0] bcast_S50000_S50000x1_0) batch) ((broadcastInDim S50000 ![] bcast_S_S50000) (constant S_ .f32 0x3F800000#32)))

-- The node rows summed per graph.
def rSums (h : (⟨S50000x64, .f32⟩ : BufTy).Contents (Elt F)) (batch : (⟨S50000, .i32⟩ : BufTy).Contents (Elt F)) :
    (⟨S256x64, .f32⟩ : BufTy).Contents (Elt F) :=
  ((fun x i u => Host.scatterAdd scatter_S256x64_S50000x1_S50000x64_1_0_0_1 x i u) ((broadcastInDim S256x64 ![] bcast_S_S256x64) (constant S_ .f32 0x00000000#32)) ((broadcastInDim S50000x1 ![0] bcast_S50000_S50000x1_0) batch) h)

-- Per graph: the sum over max(count, 1), then ·Wlin + blin.
def rPool (h : (⟨S50000x64, .f32⟩ : BufTy).Contents (Elt F)) (batch : (⟨S50000, .i32⟩ : BufTy).Contents (Elt F)) (Wlin : (⟨S64x2, .f32⟩ : BufTy).Contents (Elt F)) (blin : (⟨S2, .f32⟩ : BufTy).Contents (Elt F)) :
    (⟨S256x2, .f32⟩ : BufTy).Contents (Elt F) :=
  (addf ((fun l r => Host.dotGeneral dot_S256x64_S64x2_S256x2_1_0_0_1_n_n none l r) (Host.divf (rSums h batch) ((broadcastInDim S256x64 ![0, 1] bcast_S256x1_S256x64_0_1) ((broadcastInDim S256x1 ![0] bcast_S256_S256x1_0) (maximumf (rCnts batch) ((broadcastInDim S256 ![] bcast_S_S256) (constant S_ .f32 0x3F800000#32)))))) Wlin) ((broadcastInDim S256x2 ![0, 1] bcast_S1x2_S256x2_0_1) ((broadcastInDim S1x2 ![1] bcast_S2_S1x2_1) blin)))

-- A layer's linear part: rConv of h with its own aggregation.
def rLin (h : (⟨S50000x64, .f32⟩ : BufTy).Contents (Elt F)) (ei : (⟨S2x800000, .i32⟩ : BufTy).Contents (Elt F)) (ew : (⟨S800000, .f32⟩ : BufTy).Contents (Elt F)) (Ws : (⟨S64x64, .f32⟩ : BufTy).Contents (Elt F)) (Wn : (⟨S64x64, .f32⟩ : BufTy).Contents (Elt F)) (b : (⟨S64, .f32⟩ : BufTy).Contents (Elt F)) :
    (⟨S50000x64, .f32⟩ : BufTy).Contents (Elt F) :=
  rConv h (rAgg ei ew h) Ws Wn b

-- A hidden layer: the linear part, normalised by its own mean and variance, positive part.
def rBlock (h : (⟨S50000x64, .f32⟩ : BufTy).Contents (Elt F)) (ei : (⟨S2x800000, .i32⟩ : BufTy).Contents (Elt F)) (ew : (⟨S800000, .f32⟩ : BufTy).Contents (Elt F)) (Ws : (⟨S64x64, .f32⟩ : BufTy).Contents (Elt F)) (Wn : (⟨S64x64, .f32⟩ : BufTy).Contents (Elt F)) (b : (⟨S64, .f32⟩ : BufTy).Contents (Elt F)) (g : (⟨S64, .f32⟩ : BufTy).Contents (Elt F)) (be : (⟨S64, .f32⟩ : BufTy).Contents (Elt F)) :
    (⟨S50000x64, .f32⟩ : BufTy).Contents (Elt F) :=
  rBnRelu (rLin h ei ew Ws Wn b) (rMean (rLin h ei ew Ws Wn b)) (rVar (rLin h ei ew Ws Wn b)) g be

-- Two hidden layers, the third layer's linear part, pooling.
def rAll (x : (⟨S50000x64, .f32⟩ : BufTy).Contents (Elt F)) (ei : (⟨S2x800000, .i32⟩ : BufTy).Contents (Elt F)) (ew : (⟨S800000, .f32⟩ : BufTy).Contents (Elt F)) (batch : (⟨S50000, .i32⟩ : BufTy).Contents (Elt F)) (W1s : (⟨S64x64, .f32⟩ : BufTy).Contents (Elt F)) (W1n : (⟨S64x64, .f32⟩ : BufTy).Contents (Elt F)) (b1 : (⟨S64, .f32⟩ : BufTy).Contents (Elt F)) (W2s : (⟨S64x64, .f32⟩ : BufTy).Contents (Elt F)) (W2n : (⟨S64x64, .f32⟩ : BufTy).Contents (Elt F)) (b2 : (⟨S64, .f32⟩ : BufTy).Contents (Elt F)) (W3s : (⟨S64x64, .f32⟩ : BufTy).Contents (Elt F)) (W3n : (⟨S64x64, .f32⟩ : BufTy).Contents (Elt F)) (b3 : (⟨S64, .f32⟩ : BufTy).Contents (Elt F)) (g1 : (⟨S64, .f32⟩ : BufTy).Contents (Elt F)) (be1 : (⟨S64, .f32⟩ : BufTy).Contents (Elt F)) (g2 : (⟨S64, .f32⟩ : BufTy).Contents (Elt F)) (be2 : (⟨S64, .f32⟩ : BufTy).Contents (Elt F)) (Wlin : (⟨S64x2, .f32⟩ : BufTy).Contents (Elt F)) (blin : (⟨S2, .f32⟩ : BufTy).Contents (Elt F)) :
    (⟨S256x2, .f32⟩ : BufTy).Contents (Elt F) :=
  rPool (rLin (rBlock (rBlock x ei ew W1s W1n b1 g1 be1) ei ew W2s W2n b2 g2 be2) ei ew W3s W3n b3) batch Wlin blin

end Cert.ReferenceIdeal.Terms

end
-- ==== Proof.KI.Host.lean ====
import proofs.«401110_j833223655738_3_alg».proof.Proof.Gen.KernelIdeal.Regions
import proofs.«401110_j833223655738_3_alg».proof.Proof.Gen.ReferenceIdeal
import proofs.«401110_j833223655738_3_alg».proof.Proof.RI.Terms
import Idealize.ShloMosaic.PureOps.Ideal

set_option maxRecDepth 1356

noncomputable section

namespace Cert.KernelIdeal.Hand

open Idealize.ShloMosaic Idealize.ShloMosaic.TcCoe
open Cert.KernelIdeal Cert.KernelIdeal.Gen
open Cert.ReferenceIdeal (Terms.rAgg Terms.rMean Terms.rVar Terms.rCnts Terms.rRow0 Terms.rRow1 Terms.rSrc Terms.rDst Terms.rMsg Terms.rCtr Terms.rDof)

variable (m : (ℓ : Loc nD τ sig) → Buf (Elt Ideal) ℓ) (outs : Gen.Outs (F := Ideal)) (c : Dev nD)

theorem gather_narrow_widen (d : GatherDims S50000x64 S800000x1 S800000x64)
    (x : (⟨S50000x64, .f32⟩ : BufTy).Contents (Elt Ideal)) (idx : (⟨S800000x1, .i32⟩ : BufTy).Contents (Elt Ideal)) :
    ((extf (F := Ideal) .f32 · bitsLt_bf16_f32) : (⟨S800000x64, .bf16⟩ : BufTy).Contents (Elt Ideal) → (⟨S800000x64, .f32⟩ : BufTy).Contents (Elt Ideal))
        (Host.gather d (((truncf (F := Ideal) .bf16 · bitsLt_bf16_f32) : (⟨S50000x64, .f32⟩ : BufTy).Contents (Elt Ideal) → (⟨S50000x64, .bf16⟩ : BufTy).Contents (Elt Ideal)) x) idx)
      = Host.gather d x idx := rfl

def kAgg (r0 r1 : (⟨S800000, .i32⟩ : BufTy).Contents (Elt Ideal)) (ew : (⟨S800000, .f32⟩ : BufTy).Contents (Elt Ideal)) (h : (⟨S50000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 r1)
    (mulf
      (extf (F := Ideal) .f32
        (Host.gather gather_S50000x64_S800000x1_S800000x64_1_0_n_n_0_1_164
          (truncf (F := Ideal) .bf16 h bitsLt_bf16_f32)
          (broadcastInDim S800000x1 ![0] bcast_S800000_S800000x1_0
            (select
              (cmpi .slt r0 (broadcastInDim S800000 ![] bcast_S_S800000 (constantI S_ 32 0#32)))
              (addi r0 (broadcastInDim S800000 ![] bcast_S_S800000 (constantI S_ 32 50000#32)))
              r0)))
        bitsLt_bf16_f32)
      (broadcastInDim S800000x64 ![0, 1] bcast_S800000x1_S800000x64_0_1
        (broadcastInDim S800000x1 ![0] bcast_S800000_S800000x1_0 ew)))

theorem kAgg_eq_rAgg (ei : (⟨S2x800000, .i32⟩ : BufTy).Contents (Elt Ideal)) (ew : (⟨S800000, .f32⟩ : BufTy).Contents (Elt Ideal)) (h : (⟨S50000x64, .f32⟩ : BufTy).Contents (Elt Ideal)) :
    kAgg (Terms.rRow0 (F := Ideal) ei) (Terms.rRow1 (F := Ideal) ei) ew h = Terms.rAgg (F := Ideal) ei ew h := by
  unfold kAgg
  rw [show ∀ y idx, extf (F := Ideal) .f32 (Host.gather gather_S50000x64_S800000x1_S800000x64_1_0_n_n_0_1_164 (truncf (F := Ideal) .bf16 y bitsLt_bf16_f32) idx) bitsLt_bf16_f32 = Host.gather gather_S50000x64_S800000x1_S800000x64_1_0_n_n_0_1_164 y idx from fun y idx => gather_narrow_widen _ y idx]
  rfl

set_option maxHeartbeats 1000000 in
theorem row0_at1 :
    (V1 m c main_v1 : (⟨S800000, .i32⟩ : BufTy).Contents (Elt Ideal)) = Terms.rRow0 (F := Ideal) (m ((c : Thread nD τ).loc main_arg1)) := by
  show StableHlo.after hostOps0 _ (Proc.devRef .tc main_v1) = _
  after_results
  rfl

set_option maxHeartbeats 1000000 in
theorem row1_at1 :
    (V1 m c main_v3 : (⟨S800000, .i32⟩ : BufTy).Contents (Elt Ideal)) = Terms.rRow1 (F := Ideal) (m ((c : Thread nD τ).loc main_arg1)) := by
  show StableHlo.after hostOps0 _ (Proc.devRef .tc main_v3) = _
  after_results
  rfl

set_option maxHeartbeats 2000000 in
theorem entry0_v18 :
    (V1 m c main_v18 : (⟨S50000x64, .f32⟩ : BufTy).Contents (Elt Ideal))
      = Terms.rAgg (F := Ideal) (m ((c : Thread nD τ).loc main_arg1)) (m ((c : Thread nD τ).loc main_arg2)) (m ((c : Thread nD τ).loc main_arg0)) := by
  show StableHlo.after hostOps0 _ (Proc.devRef .tc main_v18) = _
  after_results
  exact kAgg_eq_rAgg (m ((c : Thread nD τ).loc main_arg1)) (m ((c : Thread nD τ).loc main_arg2)) (m ((c : Thread nD τ).loc main_arg0))

theorem entry0_v19 :
    (V1 m c main_v19 : (⟨S1x64, .f32⟩ : BufTy).Contents (Elt Ideal))
      = shapeCast S1x64 ((m ((c : Thread nD τ).loc main_arg6)) : (⟨S64, .f32⟩ : BufTy).Contents (Elt Ideal)) shapeCasts_S64_S1x64 := by
  show StableHlo.after hostOps0 _ (Proc.devRef .tc main_v19) = _
  after_results
  rfl

theorem entry0_arg0 : V1 m c main_arg0 = (m ((c : Thread nD τ).loc main_arg0)) :=
  (V1_of m c main_arg0 (by decide))

theorem entry0_arg4 : V1 m c main_arg4 = (m ((c : Thread nD τ).loc main_arg4)) :=
  (V1_of m c main_arg4 (by decide))

theorem entry0_arg5 : V1 m c main_arg5 = (m ((c : Thread nD τ).loc main_arg5)) :=
  (V1_of m c main_arg5 (by decide))

theorem out_at2 : V2 m outs c main_v20 = outs 2 main_v20 c := by
  show Function.update _ _ _ _ = _
  exact Function.update_self ..

theorem entry1_v20 : V5 m outs c main_v20 = outs 2 main_v20 c := by
  rw [V5_of, V4_of, V3_of] <;> first | exact out_at2 m outs c | decide

set_option maxHeartbeats 2000000 in
theorem entry1_v25 :
    (V5 m outs c main_v25 : (⟨S1x64, .f32⟩ : BufTy).Contents (Elt Ideal))
      = shapeCast S1x64 (Terms.rMean (F := Ideal) (outs 2 main_v20 c)) shapeCasts_S64_S1x64 := by
  show StableHlo.after hostOps1_2 _ (Proc.devRef .tc main_v25) = _
  after_results
  rw [out_at2 m outs c]
  rfl

set_option maxHeartbeats 2000000 in
theorem entry1_v26 :
    (V5 m outs c main_v26 : (⟨S1x64, .f32⟩ : BufTy).Contents (Elt Ideal))
      = shapeCast S1x64 (Terms.rVar (F := Ideal) (outs 2 main_v20 c)) shapeCasts_S64_S1x64 := by
  show StableHlo.after hostOps1_2 _ (Proc.devRef .tc main_v26) = _
  after_results
  rw [out_at2 m outs c]
  rfl

theorem entry1_v27 :
    (V5 m outs c main_v27 : (⟨S1x64, .f32⟩ : BufTy).Contents (Elt Ideal))
      = shapeCast S1x64 ((m ((c : Thread nD τ).loc main_arg13)) : (⟨S64, .f32⟩ : BufTy).Contents (Elt Ideal)) shapeCasts_S64_S1x64 := by
  show StableHlo.after hostOps1_2 _ (Proc.devRef .tc main_v27) = _
  after_results
  rw [V2_of, V1_of] <;> first | rfl | decide

theorem entry1_v28 :
    (V5 m outs c main_v28 : (⟨S1x64, .f32⟩ : BufTy).Contents (Elt Ideal))
      = shapeCast S1x64 ((m ((c : Thread nD τ).loc main_arg14)) : (⟨S64, .f32⟩ : BufTy).Contents (Elt Ideal)) shapeCasts_S64_S1x64 := by
  show StableHlo.after hostOps1_2 _ (Proc.devRef .tc main_v28) = _
  after_results
  rw [V2_of, V1_of] <;> first | rfl | decide

theorem out_at6 : V6 m outs c main_v29 = outs 6 main_v29 c := by
  show Function.update _ _ _ _ = _
  exact Function.update_self ..

theorem row0_at6 :
    (V6 m outs c main_v1 : (⟨S800000, .i32⟩ : BufTy).Contents (Elt Ideal)) = Terms.rRow0 (F := Ideal) (m ((c : Thread nD τ).loc main_arg1)) := by
  rw [V6_of, V5_of, V4_of, V3_of, V2_of] <;> first | exact row0_at1 m c | decide

theorem row1_at6 :
    (V6 m outs c main_v3 : (⟨S800000, .i32⟩ : BufTy).Contents (Elt Ideal)) = Terms.rRow1 (F := Ideal) (m ((c : Thread nD τ).loc main_arg1)) := by
  rw [V6_of, V5_of, V4_of, V3_of, V2_of] <;> first | exact row1_at1 m c | decide

theorem entry2_v29 : V7 m outs c main_v29 = outs 6 main_v29 c := by
  rw [V7_of] <;> first | exact out_at6 m outs c | decide

set_option maxHeartbeats 2000000 in
theorem entry2_v44 :
    (V7 m outs c main_v44 : (⟨S50000x64, .f32⟩ : BufTy).Contents (Elt Ideal))
      = Terms.rAgg (F := Ideal) (m ((c : Thread nD τ).loc main_arg1)) (m ((c : Thread nD τ).loc main_arg2)) (outs 6 main_v29 c) := by
  show StableHlo.after hostOps2 _ (Proc.devRef .tc main_v44) = _
  after_results
  rw [row0_at6 m outs c, row1_at6 m outs c, out_at6 m outs c, V6_of, V5_of, V4_of, V3_of, V2_of, V1_of] <;> first | exact kAgg_eq_rAgg (m ((c : Thread nD τ).loc main_arg1)) (m ((c : Thread nD τ).loc main_arg2)) (outs 6 main_v29 c) | decide

theorem entry2_arg7 : V7 m outs c main_arg7 = (m ((c : Thread nD τ).loc main_arg7)) := by
  rw [V7_of, V6_of, V5_of, V4_of, V3_of, V2_of, V1_of] <;> first | rfl | decide

theorem entry2_arg8 : V7 m outs c main_arg8 = (m ((c : Thread nD τ).loc main_arg8)) := by
  rw [V7_of, V6_of, V5_of, V4_of, V3_of, V2_of, V1_of] <;> first | rfl | decide

theorem entry2_v45 :
    (V7 m outs c main_v45 : (⟨S1x64, .f32⟩ : BufTy).Contents (Elt Ideal))
      = shapeCast S1x64 ((m ((c : Thread nD τ).loc main_arg9)) : (⟨S64, .f32⟩ : BufTy).Contents (Elt Ideal)) shapeCasts_S64_S1x64 := by
  show StableHlo.after hostOps2 _ (Proc.devRef .tc main_v45) = _
  after_results
  rw [V6_of, V5_of, V4_of, V3_of, V2_of, V1_of] <;> first | rfl | decide

theorem out_at8 : V8 m outs c main_v46 = outs 8 main_v46 c := by
  show Function.update _ _ _ _ = _
  exact Function.update_self ..

theorem entry3_v46 : V11 m outs c main_v46 = outs 8 main_v46 c := by
  rw [V11_of, V10_of, V9_of] <;> first | exact out_at8 m outs c | decide

set_option maxHeartbeats 2000000 in
theorem entry3_v51 :
    (V11 m outs c main_v51 : (⟨S1x64, .f32⟩ : BufTy).Contents (Elt Ideal))
      = shapeCast S1x64 (Terms.rMean (F := Ideal) (outs 8 main_v46 c)) shapeCasts_S64_S1x64 := by
  show StableHlo.after hostOps3_2 _ (Proc.devRef .tc main_v51) = _
  after_results
  rw [out_at8 m outs c]
  rfl

set_option maxHeartbeats 2000000 in
theorem entry3_v52 :
    (V11 m outs c main_v52 : (⟨S1x64, .f32⟩ : BufTy).Contents (Elt Ideal))
      = shapeCast S1x64 (Terms.rVar (F := Ideal) (outs 8 main_v46 c)) shapeCasts_S64_S1x64 := by
  show StableHlo.after hostOps3_2 _ (Proc.devRef .tc main_v52) = _
  after_results
  rw [out_at8 m outs c]
  rfl

theorem entry3_v53 :
    (V11 m outs c main_v53 : (⟨S1x64, .f32⟩ : BufTy).Contents (Elt Ideal))
      = shapeCast S1x64 ((m ((c : Thread nD τ).loc main_arg15)) : (⟨S64, .f32⟩ : BufTy).Contents (Elt Ideal)) shapeCasts_S64_S1x64 := by
  show StableHlo.after hostOps3_2 _ (Proc.devRef .tc main_v53) = _
  after_results
  rw [V8_of, V7_of, V6_of, V5_of, V4_of, V3_of, V2_of, V1_of] <;> first | rfl | decide

theorem entry3_v54 :
    (V11 m outs c main_v54 : (⟨S1x64, .f32⟩ : BufTy).Contents (Elt Ideal))
      = shapeCast S1x64 ((m ((c : Thread nD τ).loc main_arg16)) : (⟨S64, .f32⟩ : BufTy).Contents (Elt Ideal)) shapeCasts_S64_S1x64 := by
  show StableHlo.after hostOps3_2 _ (Proc.devRef .tc main_v54) = _
  after_results
  rw [V8_of, V7_of, V6_of, V5_of, V4_of, V3_of, V2_of, V1_of] <;> first | rfl | decide

theorem out_at12 : V12 m outs c main_v55 = outs 12 main_v55 c := by
  show Function.update _ _ _ _ = _
  exact Function.update_self ..

theorem row0_at12 :
    (V12 m outs c main_v1 : (⟨S800000, .i32⟩ : BufTy).Contents (Elt Ideal)) = Terms.rRow0 (F := Ideal) (m ((c : Thread nD τ).loc main_arg1)) := by
  rw [V12_of, V11_of, V10_of, V9_of, V8_of, V7_of, V6_of, V5_of, V4_of, V3_of, V2_of] <;> first | exact row0_at1 m c | decide

theorem row1_at12 :
    (V12 m outs c main_v3 : (⟨S800000, .i32⟩ : BufTy).Contents (Elt Ideal)) = Terms.rRow1 (F := Ideal) (m ((c : Thread nD τ).loc main_arg1)) := by
  rw [V12_of, V11_of, V10_of, V9_of, V8_of, V7_of, V6_of, V5_of, V4_of, V3_of, V2_of] <;> first | exact row1_at1 m c | decide

theorem entry4_v55 : V13 m outs c main_v55 = outs 12 main_v55 c := by
  rw [V13_of] <;> first | exact out_at12 m outs c | decide

set_option maxHeartbeats 2000000 in
theorem entry4_v70 :
    (V13 m outs c main_v70 : (⟨S50000x64, .f32⟩ : BufTy).Contents (Elt Ideal))
      = Terms.rAgg (F := Ideal) (m ((c : Thread nD τ).loc main_arg1)) (m ((c : Thread nD τ).loc main_arg2)) (outs 12 main_v55 c) := by
  show StableHlo.after hostOps4 _ (Proc.devRef .tc main_v70) = _
  after_results
  rw [row0_at12 m outs c, row1_at12 m outs c, out_at12 m outs c, V12_of, V11_of, V10_of, V9_of, V8_of, V7_of, V6_of, V5_of, V4_of, V3_of, V2_of, V1_of] <;> first | exact kAgg_eq_rAgg (m ((c : Thread nD τ).loc main_arg1)) (m ((c : Thread nD τ).loc main_arg2)) (outs 12 main_v55 c) | decide

theorem entry4_arg10 : V13 m outs c main_arg10 = (m ((c : Thread nD τ).loc main_arg10)) := by
  rw [V13_of, V12_of, V11_of, V10_of, V9_of, V8_of, V7_of, V6_of, V5_of, V4_of, V3_of, V2_of, V1_of] <;> first | rfl | decide

theorem entry4_arg11 : V13 m outs c main_arg11 = (m ((c : Thread nD τ).loc main_arg11)) := by
  rw [V13_of, V12_of, V11_of, V10_of, V9_of, V8_of, V7_of, V6_of, V5_of, V4_of, V3_of, V2_of, V1_of] <;> first | rfl | decide

theorem entry4_v71 :
    (V13 m outs c main_v71 : (⟨S1x64, .f32⟩ : BufTy).Contents (Elt Ideal))
      = shapeCast S1x64 ((m ((c : Thread nD τ).loc main_arg12)) : (⟨S64, .f32⟩ : BufTy).Contents (Elt Ideal)) shapeCasts_S64_S1x64 := by
  show StableHlo.after hostOps4 _ (Proc.devRef .tc main_v71) = _
  after_results
  rw [V12_of, V11_of, V10_of, V9_of, V8_of, V7_of, V6_of, V5_of, V4_of, V3_of, V2_of, V1_of] <;> first | rfl | decide

theorem out_at14 : V14 m outs c main_v72 = outs 14 main_v72 c := by
  show Function.update _ _ _ _ = _
  exact Function.update_self ..

theorem entry5_v72 : V15 m outs c main_v72 = outs 14 main_v72 c := by
  rw [V15_of] <;> first | exact out_at14 m outs c | decide

theorem entry5_v73 :
    (V15 m outs c main_v73 : (⟨S50000x1, .i32⟩ : BufTy).Contents (Elt Ideal))
      = shapeCast S50000x1 ((m ((c : Thread nD τ).loc main_arg3)) : (⟨S50000, .i32⟩ : BufTy).Contents (Elt Ideal)) shapeCasts_S50000_S50000x1 := by
  show StableHlo.after hostOps5 _ (Proc.devRef .tc main_v73) = _
  after_results
  rw [V14_of, V13_of, V12_of, V11_of, V10_of, V9_of, V8_of, V7_of, V6_of, V5_of, V4_of, V3_of, V2_of, V1_of] <;> first | rfl | decide

set_option maxHeartbeats 2000000 in
theorem entry5_v78 :
    (V15 m outs c main_v78 : (⟨S256x1, .f32⟩ : BufTy).Contents (Elt Ideal))
      = shapeCast S256x1 (Terms.rCnts (F := Ideal) (m ((c : Thread nD τ).loc main_arg3))) shapeCasts_S256_S256x1 := by
  show StableHlo.after hostOps5 _ (Proc.devRef .tc main_v78) = _
  after_results
  rw [V14_of, V13_of, V12_of, V11_of, V10_of, V9_of, V8_of, V7_of, V6_of, V5_of, V4_of, V3_of, V2_of, V1_of] <;> first | rfl | decide

theorem entry5_arg17 : V15 m outs c main_arg17 = (m ((c : Thread nD τ).loc main_arg17)) := by
  rw [V15_of, V14_of, V13_of, V12_of, V11_of, V10_of, V9_of, V8_of, V7_of, V6_of, V5_of, V4_of, V3_of, V2_of, V1_of] <;> first | rfl | decide

theorem entry5_v79 :
    (V15 m outs c main_v79 : (⟨S1x2, .f32⟩ : BufTy).Contents (Elt Ideal))
      = shapeCast S1x2 ((m ((c : Thread nD τ).loc main_arg18)) : (⟨S2, .f32⟩ : BufTy).Contents (Elt Ideal)) shapeCasts_S2_S1x2 := by
  show StableHlo.after hostOps5 _ (Proc.devRef .tc main_v79) = _
  after_results
  rw [V14_of, V13_of, V12_of, V11_of, V10_of, V9_of, V8_of, V7_of, V6_of, V5_of, V4_of, V3_of, V2_of, V1_of] <;> first | rfl | decide

theorem end_v80 : V16 m outs c main_v80 = outs 16 main_v80 c := by
  show Function.update _ _ _ _ = _
  exact Function.update_self ..

end Cert.KernelIdeal.Hand
-- ==== Proof.KI.ConvLaws.lean ====
import proofs.«401110_j833223655738_3_alg».proof.Proof.Gen.KernelIdeal
import proofs.«401110_j833223655738_3_alg».proof.Proof.RI.Terms
import Idealize.ShloMosaic.Lib.Pipeline.Value
import Idealize.ShloMosaic.Lib.ValueLayout
import Idealize.ShloMosaic.Lib.ValueIdx
import Idealize.ShloMosaic.Lib.StackMember
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

-- The tile's contraction is the plain 5000×64 by 64×64 product: the sum over the one contracted coordinate.
theorem tile_dot (A : S5000x64.Idx → EReal) (W : S64x64.Idx → EReal) (p : Fin 5000) (q : Fin 64) :
    ∑ k : (dot_S5000x64_S64x64_S5000x64_1_0_0_1_n_n).contr.Idx, A ((dot_S5000x64_S64x64_S5000x64_1_0_0_1_n_n).lhsIdx (ix2 p q) k) * W ((dot_S5000x64_S64x64_S5000x64_1_0_0_1_n_n).rhsIdx (ix2 p q) k)
      = ∑ i : Fin 64, A (ix2 p i) * W (ix2 i q) :=
  (Ideal.dotGeneral_apply (φ₁ := .f32) (φ₂ := .f32) dot_S5000x64_S64x64_S5000x64_1_0_0_1_n_n none default A W (ix2 p q)).symm.trans
    (StackMember.dotGeneral_plain_apply (φ₁ := .f32) (φ₂ := .f32) none A W p q)

section Reference
variable [Cert.ReferenceIdeal.Facts]

-- The same for the reference's 50000×64 table.
theorem table_dot (A : Cert.ReferenceIdeal.S50000x64.Idx → EReal) (W : Cert.ReferenceIdeal.S64x64.Idx → EReal) (r : Fin 50000) (q : Fin 64) :
    ∑ k : (Cert.ReferenceIdeal.dot_S50000x64_S64x64_S50000x64_1_0_0_1_n_n).contr.Idx, A ((Cert.ReferenceIdeal.dot_S50000x64_S64x64_S50000x64_1_0_0_1_n_n).lhsIdx (ix2 r q) k) * W ((Cert.ReferenceIdeal.dot_S50000x64_S64x64_S50000x64_1_0_0_1_n_n).rhsIdx (ix2 r q) k)
      = ∑ i : Fin 64, A (ix2 r i) * W (ix2 i q) :=
  (Ideal.dotGeneral_apply (φ₁ := .f32) (φ₂ := .f32) (Cert.ReferenceIdeal.dot_S50000x64_S64x64_S50000x64_1_0_0_1_n_n) none default A W (ix2 r q)).symm.trans
    (StackMember.dotGeneral_plain_apply (φ₁ := .f32) (φ₂ := .f32) none A W r q)

theorem rConv_apply (h a : (⟨Cert.ReferenceIdeal.S50000x64, .f32⟩ : BufTy).Contents (Elt Ideal))
    (Ws Wn : (⟨Cert.ReferenceIdeal.S64x64, .f32⟩ : BufTy).Contents (Elt Ideal)) (b : (⟨Cert.ReferenceIdeal.S64, .f32⟩ : BufTy).Contents (Elt Ideal))
    (r : Fin 50000) (q : Fin 64) :
    Cert.ReferenceIdeal.Terms.rConv (F := Ideal) h a Ws Wn b (ix2 r q)
      = (∑ i : Fin 64, h (ix2 r i) * Ws (ix2 i q)) + (∑ i : Fin 64, a (ix2 r i) * Wn (ix2 i q)) + b (ix1 q) := by
  unfold Cert.ReferenceIdeal.Terms.rConv
  simp only [addf_apply, Host.dotGeneral, Ideal.dotGeneral_apply]
  rw [table_dot h Ws r q, table_dot a Wn r q]
  congr 1
  rw [broadcastInDim_apply (k := ix2 (0 : Fin 1) q) (hk := fun ax => by match ax with | ⟨0, _⟩ => rfl | ⟨1, _⟩ => rfl)]
  rw [broadcastInDim_apply (k := ix1 q) (hk := fun ax => by match ax with | ⟨0, _⟩ => rfl)]

end Reference

theorem bias_entry (B : (⟨S64, .f32⟩ : BufTy).Contents (Elt Ideal)) (q : Fin 64) :
    shapeCast S1x64 B shapeCasts_S64_S1x64 (ix2 (0 : Fin 1) q) = B (ix1 q) := by
  rw [shapeCast_addUnit_apply ![64] B shapeCasts_S64_S1x64 (ix2 (0 : Fin 1) q)]
  congr 1
  funext a
  match a with
  | ⟨0, _⟩ => rfl

end Cert.KernelIdeal.Hand

end
-- ==== Proof.KI.Conv0Val.lean ====
import proofs.«401110_j833223655738_3_alg».proof.Proof.KI.Conv0
import proofs.«401110_j833223655738_3_alg».proof.Proof.KI.ConvLaws
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem tile_value0 (x0 x1 : Vec Ideal S5000x64 .f32) (x2 x3 : Vec Ideal S64x64 .f32) (x4 : Vec Ideal S1x64 .f32) (p : Fin 5000) (q : Fin 64) :
    k0_pay1 (F := Ideal) x0 x1 x2 x3 x4 (ix2 p q)
      = (∑ i : Fin 64, x0 (ix2 p i) * x2 (ix2 i q)) + (∑ i : Fin 64, x1 (ix2 p i) * x3 (ix2 i q)) + x4 (ix2 (0 : Fin 1) q) := by
  unfold k0_pay1
  simp only [addf_apply, matmul, Ideal.matmul_constant_zero_apply, shapeCast_self, broadcastTo_1b_ab_apply, truncf_apply]
  rw [tile_dot x0 x2 p q, tile_dot x1 x3 p q]

section Conv0Val
variable (V : (c : Dev nD) → (b : Ref sig .tc) → Buf (Elt Ideal) ((c : Thread nD τ).loc b))

theorem place0 : ∀ t : Fin cfg0.N,
    win0_0.index t (0 : Fin 2) = t.val ∧ win0_0.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed0 [Cert.ReferenceIdeal.Facts] (c : Dev nD) (B : (⟨S64, .f32⟩ : BufTy).Contents (Elt Ideal))
    (hb : V c main_v19 = shapeCast S1x64 B shapeCasts_S64_S1x64) (t : Fin cfg0.N) :
    (dat0 (F := Ideal) V c).flushed 5 t = ((cfg0.win 5).blk t).view.read (Elt Ideal)
      (Cert.ReferenceIdeal.Terms.rConv (F := Ideal) (V c main_arg0) (V c main_v18) (V c main_arg4) (V c main_arg5) B) := by
  obtain ⟨e00, e01, e20, e21, e40, e41, e50, e51⟩ := place0 t
  funext j
  obtain ⟨p, q, rfl⟩ : ∃ (p : Fin 5000) (q : Fin 64), j = ix2 p q := ⟨j 0, j 1, eq_ix2 j⟩
  have ht : t.val < 10 := lt_of_lt_of_eq t.isLt N_0
  have hrow : t.val * 5000 + p.val < 50000 := by have := p.isLt; omega
  show k0_pay1 (F := Ideal) (iblk0 V c 0 t) (iblk0 V c 1 t) (iblk0 V c 2 t) (iblk0 V c 3 t) (iblk0 V c 4 t) (ix2 p q)
    = Cert.ReferenceIdeal.Terms.rConv (F := Ideal) (V c main_arg0) (V c main_v18) (V c main_arg4) (V c main_arg5) B
        (((cfg0.win 5).blk t).view.emb (ix2 p q))
  have eT : ∀ i : Fin 64, ((cfg0.win 0).blk t).view.emb (ix2 p i) = ix2 (⟨t.val * 5000 + p.val, hrow⟩ : Fin 50000) i := fun i => by
    funext a; apply Fin.ext
    match a with
    | ⟨0, _⟩ => show win0_0.index t (0 : Fin 2) * 5000 + 1 * p.val = t.val * 5000 + p.val; omega
    | ⟨1, _⟩ => show win0_0.index t (1 : Fin 2) * 64 + 1 * i.val = i.val; omega
  have eW : ∀ i : Fin 64, ((cfg0.win 2).blk t).view.emb (ix2 i q) = ix2 i q := fun i => by
    funext a; apply Fin.ext
    match a with
    | ⟨0, _⟩ => show win0_2.index t (0 : Fin 2) * 64 + 1 * i.val = i.val; omega
    | ⟨1, _⟩ => show win0_2.index t (1 : Fin 2) * 64 + 1 * q.val = q.val; omega
  have at5 : ((cfg0.win 5).blk t).view.emb (ix2 p q) = ix2 (⟨t.val * 5000 + p.val, hrow⟩ : Fin 50000) q := eT q
  have rd0 : ∀ i : Fin 64, iblk0 V c 0 t (ix2 p i) = V c main_arg0 (ix2 (⟨t.val * 5000 + p.val, hrow⟩ : Fin 50000) i) := fun i => congrArg (V c main_arg0) (eT i)
  have rd1 : ∀ i : Fin 64, iblk0 V c 1 t (ix2 p i) = V c main_v18 (ix2 (⟨t.val * 5000 + p.val, hrow⟩ : Fin 50000) i) := fun i => congrArg (V c main_v18) (eT i)
  have rd2 : ∀ i : Fin 64, iblk0 V c 2 t (ix2 i q) = V c main_arg4 (ix2 i q) := fun i => congrArg (V c main_arg4) (eW i)
  have rd3 : ∀ i : Fin 64, iblk0 V c 3 t (ix2 i q) = V c main_arg5 (ix2 i q) := fun i => congrArg (V c main_arg5) (eW i)
  have rd4 : iblk0 V c 4 t (ix2 (0 : Fin 1) q) = B (ix1 q) := by
    show V c main_v19 (((cfg0.win 4).blk t).view.emb (ix2 (0 : Fin 1) q)) = _
    rw [hb, ← bias_entry B q]
    congr 1; funext a; apply Fin.ext
    match a with
    | ⟨0, _⟩ => show win0_4.index t (0 : Fin 2) * 1 + 1 * 0 = 0; omega
    | ⟨1, _⟩ => show win0_4.index t (1 : Fin 2) * 64 + 1 * q.val = q.val; omega
  rw [at5, tile_value0, rConv_apply]
  simp only [rd0, rd1, rd2, rd3, rd4]

theorem mem_tile0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v20).slice (win0_5.rect t)).set ↔ _
  rw [View.set_slice_whole, Rect.mem_set_unit]
  exact Iff.rfl

theorem covered0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < cfg0.N := lt_of_lt_of_eq (by omega : (i 0).val / 5000 < 10) N_0.symm
  obtain ⟨-, -, -, -, -, -, e50, e51⟩ := place0 ⟨(i 0).val / 5000, hN⟩
  refine ⟨⟨(i 0).val / 5000, hN⟩, flush0_5 _, ?_⟩
  rw [mem_tile0]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    omega

theorem final0 [Cert.ReferenceIdeal.Facts] (c : Dev nD) (B : (⟨S64, .f32⟩ : BufTy).Contents (Elt Ideal))
    (hb : V c main_v19 = shapeCast S1x64 B shapeCasts_S64_S1x64) :
    (dat0 (F := Ideal) V c).arrAt 5 cfg0.N
      = Cert.ReferenceIdeal.Terms.rConv (F := Ideal) (V c main_arg0) (V c main_v18) (V c main_arg4) (V c main_arg5) B :=
  (dat0 V c).arrAt_eq_of_cover 5 _ (fun t _ => flushed0 V c B hb t) covered0

end Conv0Val

end Cert.KernelIdeal.Hand

end
-- ==== Proof.KI.Bn1Val.lean ====
import proofs.«401110_j833223655738_3_alg».proof.Proof.KI.Bn1
import proofs.«401110_j833223655738_3_alg».proof.Proof.KI.Conv0Val
import proofs.«401110_j833223655738_3_alg».proof.Proof.RI.Terms
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

def bnReluEntry1 (h m v g b : Ideal .f32) : Ideal .f32 :=
  FloatOps.maximumf (FloatOps.addf (FloatOps.mulf (FloatOps.mulf g (FloatOps.subf h m))
    (FloatOps.rsqrt (FloatOps.addf v (Scalar.ofBits .f32 0x3727C5AC#32)))) b) (Scalar.ofBits .f32 0x00000000#32)

theorem pay1_at (x0 : Vec Ideal S5000x64 .f32) (xv xg xm xb : Vec Ideal S1x64 .f32) (p : Fin 5000) (q : Fin 64) :
    k1_pay1 x0 xv xg xm xb (ix2 p q)
      = bnReluEntry1 (x0 (ix2 p q)) (xm (ix2 (0 : Fin 1) q)) (xv (ix2 (0 : Fin 1) q)) (xg (ix2 (0 : Fin 1) q)) (xb (ix2 (0 : Fin 1) q)) := by
  unfold k1_pay1
  simp only [shapeCast_self]
  simp only [maximumf_apply, addf_apply, mulf_apply, subf_apply, broadcastTo_1b_ab_apply, broadcast_apply]
  rfl

def bnReluArr1 (h : Vec Ideal S50000x64 .f32) (m v g b : Vec Ideal S1x64 .f32) : Vec Ideal S50000x64 .f32 := fun i =>
  bnReluEntry1 (h i) (m (ix2 (0 : Fin 1) (i 1 : Fin 64))) (v (ix2 (0 : Fin 1) (i 1 : Fin 64)))
    (g (ix2 (0 : Fin 1) (i 1 : Fin 64))) (b (ix2 (0 : Fin 1) (i 1 : Fin 64)))

theorem index_maps1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0 :=
  (by decide +kernel : ∀ t : Fin grid1.N, _)

theorem flushed1_eq (c : Dev nD) (t : Fin cfg1.N) :
    (dat1 V c).flushed 5 t
      = ((cfg1.win 5).blk t).view.read (Elt Ideal)
          (bnReluArr1 (V c main_v20) (V c main_v25) (V c main_v26) (V c main_v27) (V c main_v28)) := by
  obtain ⟨a0, a1, o0, o1, m0, m1⟩ := index_maps1 t
  funext j
  obtain ⟨p, q, rfl⟩ : ∃ (p : Fin 5000) (q : Fin 64), j = ix2 p q := ⟨j 0, j 1, eq_ix2 j⟩
  show k1_pay1 (iblk1 V c 0 t) (iblk1 V c 2 t) (iblk1 V c 3 t) (iblk1 V c 1 t) (iblk1 V c 4 t) (ix2 p q) = _
  rw [pay1_at]
  have e0 : ((cfg1.win 0).blk t).view.emb (ix2 p q) = ((cfg1.win 5).blk t).view.emb (ix2 p q) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 64 + 1 * q.val = win1_5.index t (1 : Fin 2) * 64 + 1 * q.val; omega
  have e1 : ((cfg1.win 1).blk t).view.emb (ix2 (0 : Fin 1) q) = ix2 (0 : Fin 1) ((((cfg1.win 5).blk t).view.emb (ix2 p q)) 1 : Fin 64) := by
    funext a; apply Fin.ext
    match a with
    | ⟨0, _⟩ => show win1_1.index t (0 : Fin 2) * 1 + 1 * 0 = 0; omega
    | ⟨1, _⟩ => show win1_1.index t (1 : Fin 2) * 64 + 1 * q.val = win1_5.index t (1 : Fin 2) * 64 + 1 * q.val; omega
  exact (congr (congr (congr (congr (congrArg bnReluEntry1 (congrArg (V c main_v20) e0)) (congrArg (V c main_v25) e1))
    (congrArg (V c main_v26) e1)) (congrArg (V c main_v27) e1)) (congrArg (V c main_v28) e1) :)

-- The result window walks the same row tiles as region 0's.
theorem covered1 (i : S50000x64.Idx) : ∃ t : Fin cfg1.N, (cfg1.win 5).flush t = true ∧ i ∈ ((cfg1.win 5).blk t).view.set :=
  covered0 i

theorem arr1 (c : Dev nD) :
    (dat1 V c).arrAt 5 cfg1.N = bnReluArr1 (V c main_v20) (V c main_v25) (V c main_v26) (V c main_v27) (V c main_v28) :=
  (dat1 V c).arrAt_eq_of_cover 5 _ (fun t _ => flushed1_eq V c t) covered1

theorem row_of_vector_apply1 {α : Type} {n : Nat} (hd : (⟨1, ![n]⟩ : Shape).BroadcastsInDim ⟨2, ![1, n]⟩ ![1])
    (x : (⟨1, ![n]⟩ : Shape).Idx → α) (u : Fin 1) (q : Fin n) : broadcastInDim ⟨2, ![1, n]⟩ ![1] hd x (ix2 u q) = x (ix1 q) := by
  refine broadcastInDim_apply ![1] hd x (ix2 u q) (ix1 q) fun a => ?_
  match a with
  | ⟨0, _⟩ =>
    show q.val = if n = 1 then 0 else q.val
    split
    · have := q.isLt; omega
    · rfl

theorem ref_at1 [Cert.ReferenceIdeal.Facts] (h : Vec Ideal S50000x64 .f32) (MEAN VAR G BE : Vec Ideal S64 .f32) (p : Fin 50000) (q : Fin 64) :
    Cert.ReferenceIdeal.Terms.rBnRelu (F := Ideal) h MEAN VAR G BE (ix2 p q)
      = bnReluEntry1 (h (ix2 p q)) (MEAN (ix1 q)) (VAR (ix1 q)) (G (ix1 q)) (BE (ix1 q)) := by
  unfold Cert.ReferenceIdeal.Terms.rBnRelu
  simp only [maximumf_apply, addf_apply, mulf_apply, subf_apply]
  rw [broadcastInDim_oneRow_apply, broadcastInDim_oneRow_apply, broadcastInDim_oneRow_apply, broadcastInDim_oneRow_apply,
    row_of_vector_apply1, row_of_vector_apply1, row_of_vector_apply1, row_of_vector_apply1, broadcastInDim_scalar_apply]
  simp only [Host.rsqrt, addf_apply]
  rw [broadcastInDim_scalar_apply]

  rfl

theorem bnReluArr1_eq_ref [Cert.ReferenceIdeal.Facts] (h : Vec Ideal S50000x64 .f32) (MEAN VAR G BE : Vec Ideal S64 .f32) :
    bnReluArr1 h (shapeCast S1x64 MEAN shapeCasts_S64_S1x64) (shapeCast S1x64 VAR shapeCasts_S64_S1x64)
        (shapeCast S1x64 G shapeCasts_S64_S1x64) (shapeCast S1x64 BE shapeCasts_S64_S1x64)
      = Cert.ReferenceIdeal.Terms.rBnRelu (F := Ideal) h MEAN VAR G BE := by
  funext i
  obtain ⟨p, q, rfl⟩ : ∃ (p : Fin 50000) (q : Fin 64), i = ix2 p q := ⟨i 0, i 1, eq_ix2 i⟩
  rw [ref_at1]
  show bnReluEntry1 (h (ix2 p q)) (shapeCast S1x64 MEAN shapeCasts_S64_S1x64 (ix2 (0 : Fin 1) q))
      (shapeCast S1x64 VAR shapeCasts_S64_S1x64 (ix2 (0 : Fin 1) q)) (shapeCast S1x64 G shapeCasts_S64_S1x64 (ix2 (0 : Fin 1) q))
      (shapeCast S1x64 BE shapeCasts_S64_S1x64 (ix2 (0 : Fin 1) q)) = _
  rw [shapeCast_a_1a_apply, shapeCast_a_1a_apply, shapeCast_a_1a_apply, shapeCast_a_1a_apply]

theorem final1 [Cert.ReferenceIdeal.Facts] (c : Dev nD) (MEAN VAR G BE : Vec Ideal S64 .f32)
    (hm : V c main_v25 = shapeCast S1x64 MEAN shapeCasts_S64_S1x64)
    (hv : V c main_v26 = shapeCast S1x64 VAR shapeCasts_S64_S1x64)
    (hg : V c main_v27 = shapeCast S1x64 G shapeCasts_S64_S1x64)
    (hbe : V c main_v28 = shapeCast S1x64 BE shapeCasts_S64_S1x64) :
    (dat1 (F := Ideal) V c).arrAt 5 cfg1.N = Cert.ReferenceIdeal.Terms.rBnRelu (F := Ideal) (V c main_v20) MEAN VAR G BE := by
  rw [arr1, hm, hv, hg, hbe]
  exact bnReluArr1_eq_ref _ MEAN VAR G BE

end Cert.KernelIdeal.Hand
-- ==== Proof.KI.Conv2Val.lean ====
import proofs.«401110_j833223655738_3_alg».proof.Proof.KI.Conv2
import proofs.«401110_j833223655738_3_alg».proof.Proof.KI.ConvLaws
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem tile_value2 (x0 x1 : Vec Ideal S5000x64 .f32) (x2 x3 : Vec Ideal S64x64 .f32) (x4 : Vec Ideal S1x64 .f32) (p : Fin 5000) (q : Fin 64) :
    k2_pay1 (F := Ideal) x0 x1 x2 x3 x4 (ix2 p q)
      = (∑ i : Fin 64, x0 (ix2 p i) * x2 (ix2 i q)) + (∑ i : Fin 64, x1 (ix2 p i) * x3 (ix2 i q)) + x4 (ix2 (0 : Fin 1) q) := by
  unfold k2_pay1
  simp only [addf_apply, matmul, Ideal.matmul_constant_zero_apply, shapeCast_self, broadcastTo_1b_ab_apply, truncf_apply]
  rw [tile_dot x0 x2 p q, tile_dot x1 x3 p q]

section Conv2Val
variable (V : (c : Dev nD) → (b : Ref sig .tc) → Buf (Elt Ideal) ((c : Thread nD τ).loc b))

theorem place2 : ∀ t : Fin cfg2.N,
    win2_0.index t (0 : Fin 2) = t.val ∧ win2_0.index t (1 : Fin 2) = 0
    ∧ win2_2.index t (0 : Fin 2) = 0 ∧ win2_2.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem flushed2 [Cert.ReferenceIdeal.Facts] (c : Dev nD) (B : (⟨S64, .f32⟩ : BufTy).Contents (Elt Ideal))
    (hb : V c main_v45 = shapeCast S1x64 B shapeCasts_S64_S1x64) (t : Fin cfg2.N) :
    (dat2 (F := Ideal) V c).flushed 5 t = ((cfg2.win 5).blk t).view.read (Elt Ideal)
      (Cert.ReferenceIdeal.Terms.rConv (F := Ideal) (V c main_v29) (V c main_v44) (V c main_arg7) (V c main_arg8) B) := by
  obtain ⟨e00, e01, e20, e21, e40, e41, e50, e51⟩ := place2 t
  funext j
  obtain ⟨p, q, rfl⟩ : ∃ (p : Fin 5000) (q : Fin 64), j = ix2 p q := ⟨j 0, j 1, eq_ix2 j⟩
  have ht : t.val < 10 := lt_of_lt_of_eq t.isLt N_2
  have hrow : t.val * 5000 + p.val < 50000 := by have := p.isLt; omega
  show k2_pay1 (F := Ideal) (iblk2 V c 0 t) (iblk2 V c 1 t) (iblk2 V c 2 t) (iblk2 V c 3 t) (iblk2 V c 4 t) (ix2 p q)
    = Cert.ReferenceIdeal.Terms.rConv (F := Ideal) (V c main_v29) (V c main_v44) (V c main_arg7) (V c main_arg8) B
        (((cfg2.win 5).blk t).view.emb (ix2 p q))
  have eT : ∀ i : Fin 64, ((cfg2.win 0).blk t).view.emb (ix2 p i) = ix2 (⟨t.val * 5000 + p.val, hrow⟩ : Fin 50000) i := fun i => by
    funext a; apply Fin.ext
    match a with
    | ⟨0, _⟩ => show win2_0.index t (0 : Fin 2) * 5000 + 1 * p.val = t.val * 5000 + p.val; omega
    | ⟨1, _⟩ => show win2_0.index t (1 : Fin 2) * 64 + 1 * i.val = i.val; omega
  have eW : ∀ i : Fin 64, ((cfg2.win 2).blk t).view.emb (ix2 i q) = ix2 i q := fun i => by
    funext a; apply Fin.ext
    match a with
    | ⟨0, _⟩ => show win2_2.index t (0 : Fin 2) * 64 + 1 * i.val = i.val; omega
    | ⟨1, _⟩ => show win2_2.index t (1 : Fin 2) * 64 + 1 * q.val = q.val; omega
  have at5 : ((cfg2.win 5).blk t).view.emb (ix2 p q) = ix2 (⟨t.val * 5000 + p.val, hrow⟩ : Fin 50000) q := eT q
  have rd0 : ∀ i : Fin 64, iblk2 V c 0 t (ix2 p i) = V c main_v29 (ix2 (⟨t.val * 5000 + p.val, hrow⟩ : Fin 50000) i) := fun i => congrArg (V c main_v29) (eT i)
  have rd1 : ∀ i : Fin 64, iblk2 V c 1 t (ix2 p i) = V c main_v44 (ix2 (⟨t.val * 5000 + p.val, hrow⟩ : Fin 50000) i) := fun i => congrArg (V c main_v44) (eT i)
  have rd2 : ∀ i : Fin 64, iblk2 V c 2 t (ix2 i q) = V c main_arg7 (ix2 i q) := fun i => congrArg (V c main_arg7) (eW i)
  have rd3 : ∀ i : Fin 64, iblk2 V c 3 t (ix2 i q) = V c main_arg8 (ix2 i q) := fun i => congrArg (V c main_arg8) (eW i)
  have rd4 : iblk2 V c 4 t (ix2 (0 : Fin 1) q) = B (ix1 q) := by
    show V c main_v45 (((cfg2.win 4).blk t).view.emb (ix2 (0 : Fin 1) q)) = _
    rw [hb, ← bias_entry B q]
    congr 1; funext a; apply Fin.ext
    match a with
    | ⟨0, _⟩ => show win2_4.index t (0 : Fin 2) * 1 + 1 * 0 = 0; omega
    | ⟨1, _⟩ => show win2_4.index t (1 : Fin 2) * 64 + 1 * q.val = q.val; omega
  rw [at5, tile_value2, rConv_apply]
  simp only [rd0, rd1, rd2, rd3, rd4]

theorem mem_tile2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v46).slice (win2_5.rect t)).set ↔ _
  rw [View.set_slice_whole, Rect.mem_set_unit]
  exact Iff.rfl

theorem covered2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : (i 0).val / 5000 < cfg2.N := lt_of_lt_of_eq (by omega : (i 0).val / 5000 < 10) N_2.symm
  obtain ⟨-, -, -, -, -, -, e50, e51⟩ := place2 ⟨(i 0).val / 5000, hN⟩
  refine ⟨⟨(i 0).val / 5000, hN⟩, flush2_5 _, ?_⟩
  rw [mem_tile2]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    omega

theorem final2 [Cert.ReferenceIdeal.Facts] (c : Dev nD) (B : (⟨S64, .f32⟩ : BufTy).Contents (Elt Ideal))
    (hb : V c main_v45 = shapeCast S1x64 B shapeCasts_S64_S1x64) :
    (dat2 (F := Ideal) V c).arrAt 5 cfg2.N
      = Cert.ReferenceIdeal.Terms.rConv (F := Ideal) (V c main_v29) (V c main_v44) (V c main_arg7) (V c main_arg8) B :=
  (dat2 V c).arrAt_eq_of_cover 5 _ (fun t _ => flushed2 V c B hb t) covered2

end Conv2Val

end Cert.KernelIdeal.Hand

end
-- ==== Proof.KI.Bn3Val.lean ====
import proofs.«401110_j833223655738_3_alg».proof.Proof.KI.Bn3
import proofs.«401110_j833223655738_3_alg».proof.Proof.KI.Bn1Val

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem index_maps3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0 :=
  (by decide +kernel : ∀ t : Fin grid3.N, _)

-- Entry by entry: the tile window sits where the result window does, and a row window's block is the whole row.
theorem flushed3_eq (c : Dev nD) (t : Fin cfg3.N) :
    (dat3 V c).flushed 5 t
      = ((cfg3.win 5).blk t).view.read (Elt Ideal)
          (bnReluArr1 (V c main_v46) (V c main_v51) (V c main_v52) (V c main_v53) (V c main_v54)) := by
  obtain ⟨a0, a1, o0, o1, m0, m1⟩ := index_maps3 t
  funext j
  obtain ⟨p, q, rfl⟩ : ∃ (p : Fin 5000) (q : Fin 64), j = ix2 p q := ⟨j 0, j 1, eq_ix2 j⟩
  show k1_pay1 (iblk3 V c 0 t) (iblk3 V c 2 t) (iblk3 V c 3 t) (iblk3 V c 1 t) (iblk3 V c 4 t) (ix2 p q) = _
  rw [pay1_at]
  have e0 : ((cfg3.win 0).blk t).view.emb (ix2 p q) = ((cfg3.win 5).blk t).view.emb (ix2 p q) := by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 64 + 1 * q.val = win3_5.index t (1 : Fin 2) * 64 + 1 * q.val; omega
  have e1 : ((cfg3.win 1).blk t).view.emb (ix2 (0 : Fin 1) q) = ix2 (0 : Fin 1) ((((cfg3.win 5).blk t).view.emb (ix2 p q)) 1 : Fin 64) := by
    funext a; apply Fin.ext
    match a with
    | ⟨0, _⟩ => show win3_1.index t (0 : Fin 2) * 1 + 1 * 0 = 0; omega
    | ⟨1, _⟩ => show win3_1.index t (1 : Fin 2) * 64 + 1 * q.val = win3_5.index t (1 : Fin 2) * 64 + 1 * q.val; omega
  exact (congr (congr (congr (congr (congrArg bnReluEntry1 (congrArg (V c main_v46) e0)) (congrArg (V c main_v51) e1))
    (congrArg (V c main_v52) e1)) (congrArg (V c main_v53) e1)) (congrArg (V c main_v54) e1) :)

-- The result window walks the same row tiles as region 1's.
theorem covered3 (i : S50000x64.Idx) : ∃ t : Fin cfg3.N, (cfg3.win 5).flush t = true ∧ i ∈ ((cfg3.win 5).blk t).view.set :=
  covered1 i

theorem arr3 (c : Dev nD) :
    (dat3 V c).arrAt 5 cfg3.N = bnReluArr1 (V c main_v46) (V c main_v51) (V c main_v52) (V c main_v53) (V c main_v54) :=
  (dat3 V c).arrAt_eq_of_cover 5 _ (fun t _ => flushed3_eq V c t) covered3

theorem final3 [Cert.ReferenceIdeal.Facts] (c : Dev nD) (MEAN VAR G BE : Vec Ideal S64 .f32)
    (hm : V c main_v51 = shapeCast S1x64 MEAN shapeCasts_S64_S1x64)
    (hv : V c main_v52 = shapeCast S1x64 VAR shapeCasts_S64_S1x64)
    (hg : V c main_v53 = shapeCast S1x64 G shapeCasts_S64_S1x64)
    (hbe : V c main_v54 = shapeCast S1x64 BE shapeCasts_S64_S1x64) :
    (dat3 (F := Ideal) V c).arrAt 5 cfg3.N = Cert.ReferenceIdeal.Terms.rBnRelu (F := Ideal) (V c main_v46) MEAN VAR G BE := by
  rw [arr3, hm, hv, hg, hbe]
  exact bnReluArr1_eq_ref _ MEAN VAR G BE

end Cert.KernelIdeal.Hand
-- ==== Proof.KI.Conv4Val.lean ====
import proofs.«401110_j833223655738_3_alg».proof.Proof.KI.Conv4
import proofs.«401110_j833223655738_3_alg».proof.Proof.KI.Conv2Val

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

section Conv4Val
variable (V : (c : Dev nD) → (b : Ref sig .tc) → Buf (Elt Ideal) ((c : Thread nD τ).loc b))

theorem place4 : ∀ t : Fin cfg4.N,
    win4_0.index t (0 : Fin 2) = t.val ∧ win4_0.index t (1 : Fin 2) = 0
    ∧ win4_2.index t (0 : Fin 2) = 0 ∧ win4_2.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

-- Entry by entry both sides are the two sums of 64 products plus the bias entry, read at row t · 5000 + p.
theorem flushed4 [Cert.ReferenceIdeal.Facts] (c : Dev nD) (B : (⟨S64, .f32⟩ : BufTy).Contents (Elt Ideal))
    (hb : V c main_v71 = shapeCast S1x64 B shapeCasts_S64_S1x64) (t : Fin cfg4.N) :
    (dat4 (F := Ideal) V c).flushed 5 t = ((cfg4.win 5).blk t).view.read (Elt Ideal)
      (Cert.ReferenceIdeal.Terms.rConv (F := Ideal) (V c main_v55) (V c main_v70) (V c main_arg10) (V c main_arg11) B) := by
  obtain ⟨e00, e01, e20, e21, e40, e41, e50, e51⟩ := place4 t
  funext j
  obtain ⟨p, q, rfl⟩ : ∃ (p : Fin 5000) (q : Fin 64), j = ix2 p q := ⟨j 0, j 1, eq_ix2 j⟩
  have ht : t.val < 10 := lt_of_lt_of_eq t.isLt N_4
  have hrow : t.val * 5000 + p.val < 50000 := by have := p.isLt; omega
  show k2_pay1 (F := Ideal) (iblk4 V c 0 t) (iblk4 V c 1 t) (iblk4 V c 2 t) (iblk4 V c 3 t) (iblk4 V c 4 t) (ix2 p q)
    = Cert.ReferenceIdeal.Terms.rConv (F := Ideal) (V c main_v55) (V c main_v70) (V c main_arg10) (V c main_arg11) B
        (((cfg4.win 5).blk t).view.emb (ix2 p q))
  have eT : ∀ i : Fin 64, ((cfg4.win 0).blk t).view.emb (ix2 p i) = ix2 (⟨t.val * 5000 + p.val, hrow⟩ : Fin 50000) i := fun i => by
    funext a; apply Fin.ext
    match a with
    | ⟨0, _⟩ => show win4_0.index t (0 : Fin 2) * 5000 + 1 * p.val = t.val * 5000 + p.val; omega
    | ⟨1, _⟩ => show win4_0.index t (1 : Fin 2) * 64 + 1 * i.val = i.val; omega
  have eW : ∀ i : Fin 64, ((cfg4.win 2).blk t).view.emb (ix2 i q) = ix2 i q := fun i => by
    funext a; apply Fin.ext
    match a with
    | ⟨0, _⟩ => show win4_2.index t (0 : Fin 2) * 64 + 1 * i.val = i.val; omega
    | ⟨1, _⟩ => show win4_2.index t (1 : Fin 2) * 64 + 1 * q.val = q.val; omega
  have at5 : ((cfg4.win 5).blk t).view.emb (ix2 p q) = ix2 (⟨t.val * 5000 + p.val, hrow⟩ : Fin 50000) q := eT q
  have rd0 : ∀ i : Fin 64, iblk4 V c 0 t (ix2 p i) = V c main_v55 (ix2 (⟨t.val * 5000 + p.val, hrow⟩ : Fin 50000) i) := fun i => congrArg (V c main_v55) (eT i)
  have rd1 : ∀ i : Fin 64, iblk4 V c 1 t (ix2 p i) = V c main_v70 (ix2 (⟨t.val * 5000 + p.val, hrow⟩ : Fin 50000) i) := fun i => congrArg (V c main_v70) (eT i)
  have rd2 : ∀ i : Fin 64, iblk4 V c 2 t (ix2 i q) = V c main_arg10 (ix2 i q) := fun i => congrArg (V c main_arg10) (eW i)
  have rd3 : ∀ i : Fin 64, iblk4 V c 3 t (ix2 i q) = V c main_arg11 (ix2 i q) := fun i => congrArg (V c main_arg11) (eW i)
  have rd4 : iblk4 V c 4 t (ix2 (0 : Fin 1) q) = B (ix1 q) := by
    show V c main_v71 (((cfg4.win 4).blk t).view.emb (ix2 (0 : Fin 1) q)) = _
    rw [hb, ← bias_entry B q]
    congr 1; funext a; apply Fin.ext
    match a with
    | ⟨0, _⟩ => show win4_4.index t (0 : Fin 2) * 1 + 1 * 0 = 0; omega
    | ⟨1, _⟩ => show win4_4.index t (1 : Fin 2) * 64 + 1 * q.val = q.val; omega
  rw [at5, tile_value2, rConv_apply]
  simp only [rd0, rd1, rd2, rd3, rd4]

-- The result window walks the same row tiles as region 2's.
theorem covered4 (i : S50000x64.Idx) :
    ∃ t : Fin cfg4.N, (cfg4.win 5).flush t = true ∧ i ∈ ((cfg4.win 5).blk t).view.set :=
  covered2 i

theorem final4 [Cert.ReferenceIdeal.Facts] (c : Dev nD) (B : (⟨S64, .f32⟩ : BufTy).Contents (Elt Ideal))
    (hb : V c main_v71 = shapeCast S1x64 B shapeCasts_S64_S1x64) :
    (dat4 (F := Ideal) V c).arrAt 5 cfg4.N
      = Cert.ReferenceIdeal.Terms.rConv (F := Ideal) (V c main_v55) (V c main_v70) (V c main_arg10) (V c main_arg11) B :=
  (dat4 V c).arrAt_eq_of_cover 5 _ (fun t _ => flushed4 V c B hb t) covered4

end Conv4Val

end Cert.KernelIdeal.Hand

end
-- ==== Proof.LibScatterGather.lean ====
import Idealize.ShloMosaic.PureOps.Ideal
import Idealize.ShloMosaic.PureOps.Contract
import Idealize.ShloMosaic.Lib.ValueIdx

noncomputable section

namespace Cert.Gcn.Lib

open Idealize.ShloMosaic Idealize.ShloMosaic.ValueIdx

private def idxEquiv1 {n : Nat} : Fin n ≃ (⟨1, ![n]⟩ : Shape).Idx where
  toFun := ix1
  invFun j := j 0
  left_inv _ := rfl
  right_inv j := (eq_ix1 j).symm

section Vec
variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1)
include huw hiw hsd hiv

private theorem vec_start (idx : IVec ⟨2, ![n, 1]⟩ w) (j : (⟨1, ![n]⟩ : Shape).Idx) (a : Fin 1) :
    d.start j idx a = (idx (ix2 (j 0) (0 : Fin 1))).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 1, (j X).val = (j 0).val := fun X => by
      obtain rfl : X = 0 := Subsingleton.elim _ _; rfl
    exact e _
  | ⟨1, _⟩ =>
    unfold ScatterDims.siIdx
    rw [dif_pos (by rw [hiv])]
    apply Fin.ext
    show List.idxOf (0 : Fin 1) d.scatterDimsToOperandDims = 0
    rw [hsd]; simp

private theorem vec_window (j : (⟨1, ![n]⟩ : Shape).Idx) (a : Fin 1) : d.window j a = 0 := by
  unfold ScatterDims.window
  rw [dif_neg]
  obtain rfl : a = 0 := Subsingleton.elim _ _
  simp [ScatterDims.sKept, Shape.kept, hiw]

private theorem vec_resultIdx (idx : IVec ⟨2, ![n, 1]⟩ w) (j : (⟨1, ![n]⟩ : Shape).Idx) (i : Fin N) :
    d.resultIdx? j idx = some (ix1 i) ↔ (idx (ix2 (j 0) (0 : Fin 1))).toInt = (i.val : ℤ) := by
  have hst := vec_start d huw hiw hsd hiv idx j
  have hwi := vec_window d huw hiw hsd hiv j
  unfold ScatterDims.resultIdx?
  split
  · rename_i h
    constructor
    · intro he
      have h1 := congrArg Fin.val (congrFun (Option.some.inj he) 0)
      have h0 := (h 0).1
      rw [hst, hwi] at h0
      change (d.start j idx 0 + (d.window j 0 : ℤ)).toNat = i.val at h1
      rw [hst, hwi] at h1
      omega
    · intro he
      congr 1
      funext a
      obtain rfl : a = 0 := Subsingleton.elim _ _
      apply Fin.ext
      change (d.start j idx 0 + (d.window j 0 : ℤ)).toNat = i.val
      rw [hst, hwi, he]
      omega
  · rename_i h
    constructor
    · intro he
      cases he
    · intro he
      exfalso
      apply h
      intro a
      obtain rfl : a = 0 := Subsingleton.elim _ _
      rw [hst, hwi, he]
      have hi : i.val < N := i.isLt
      refine ⟨by omega, ?_⟩
      change ((i.val : ℤ) + ((0 : ℕ) : ℤ)) < ((N : ℕ) : ℤ)
      omega

end Vec

theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ p : Fin n, if (idx (ix2 p (0 : Fin 1))).toInt = (i.val : ℤ) then upd (ix1 p) else 0 := by
  unfold Ideal.hostScatterAdd
  congr 1
  rw [Finset.sum_filter, ← Equiv.sum_comp (idxEquiv1 (n := n))]
  refine Finset.sum_congr rfl fun p _ => ?_
  exact if_congr (vec_resultIdx d huw hiw hsd hiv idx (ix1 p) i) rfl rfl

section Rows
variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1)
include huw hiw hsd hiv

private theorem rows_uScatter (X : Fin 2) (hX : X ∈ d.uScatter) : X = 0 := by
  have h1 : X ∉ d.updateWindowDims := by
    have := hX
    simp only [ScatterDims.uScatter, Shape.kept, List.mem_filter, List.mem_finRange, true_and, decide_eq_true_eq] at this
    exact this
  rw [huw, List.mem_singleton] at h1
  match X, h1 with
  | ⟨0, _⟩, _ => rfl
  | ⟨1, _⟩, h => exact absurd rfl h

private theorem rows_start0 (idx : IVec ⟨2, ![n, 1]⟩ w) (j : (⟨2, ![n, C]⟩ : Shape).Idx) :
    d.start j idx (0 : Fin 2) = (idx (ix2 (j 0) (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    have e : ∀ X : Fin 2, X ∈ d.uScatter → (j X).val = (j 0).val := fun X hX => by
      rw [rows_uScatter d huw hiw hsd hiv X hX]
    exact e _ (List.getElem_mem _)
  | ⟨1, _⟩ =>
    unfold ScatterDims.siIdx
    rw [dif_pos (by rw [hiv])]
    apply Fin.ext
    show List.idxOf (0 : Fin 2) d.scatterDimsToOperandDims = 0
    rw [hsd]; simp

private theorem rows_start1 (idx : IVec ⟨2, ![n, 1]⟩ w) (j : (⟨2, ![n, C]⟩ : Shape).Idx) :
    d.start j idx (1 : Fin 2) = 0 := by
  unfold ScatterDims.start
  rw [dif_neg]
  rw [hsd, List.mem_singleton]
  intro h
  exact Nat.one_ne_zero (congrArg Fin.val h)

private theorem rows_window0 (j : (⟨2, ![n, C]⟩ : Shape).Idx) : d.window j (0 : Fin 2) = 0 := by
  unfold ScatterDims.window
  rw [dif_neg]
  simp [ScatterDims.sKept, Shape.kept, hiw]

private theorem rows_window1 (j : (⟨2, ![n, C]⟩ : Shape).Idx) : d.window j (1 : Fin 2) = (j 1).val := by
  have hk : (1 : Fin 2) ∈ d.sKept := by
    simp [ScatterDims.sKept, Shape.kept, hiw]
  unfold ScatterDims.window
  rw [dif_pos hk]
  have e : ∀ X : Fin 2, X ∈ d.updateWindowDims → (j X).val = (j 1).val := fun X hX => by
    rw [huw, List.mem_singleton] at hX
    rw [hX]
  exact e _ (List.getElem_mem _)

private theorem rows_resultIdx (idx : IVec ⟨2, ![n, 1]⟩ w) (j : (⟨2, ![n, C]⟩ : Shape).Idx) (i : Fin N) (c : Fin C) :
    d.resultIdx? j idx = some (ix2 i c) ↔ (idx (ix2 (j 0) (0 : Fin 1))).toInt = (i.val : ℤ) ∧ j 1 = c := by
  have hs0 := rows_start0 d huw hiw hsd hiv idx j
  have hs1 := rows_start1 d huw hiw hsd hiv idx j
  have hw0 := rows_window0 d huw hiw hsd hiv j
  have hw1 := rows_window1 d huw hiw hsd hiv j
  have hi : i.val < N := i.isLt
  have hc : c.val < C := c.isLt
  have hj1 : (j 1).val < C := idx2_lt1 j
  unfold ScatterDims.resultIdx?
  split
  · rename_i h
    constructor
    · intro he
      have hf := Option.some.inj he
      have h0 := congrArg Fin.val (congrFun hf (0 : Fin 2))
      have h1 := congrArg Fin.val (congrFun hf (1 : Fin 2))
      change (d.start j idx (0 : Fin 2) + (d.window j (0 : Fin 2) : ℤ)).toNat = i.val at h0
      change (d.start j idx (1 : Fin 2) + (d.window j (1 : Fin 2) : ℤ)).toNat = c.val at h1
      have g0 := (h (0 : Fin 2)).1
      rw [hs0, hw0] at h0 g0
      rw [hs1, hw1] at h1
      refine ⟨by omega, Fin.ext (by omega)⟩
    · rintro ⟨he, hjc⟩
      congr 1
      funext a
      match a with
      | ⟨0, _⟩ =>
        apply Fin.ext
        change (d.start j idx (0 : Fin 2) + (d.window j (0 : Fin 2) : ℤ)).toNat = i.val
        rw [hs0, hw0, he]; omega
      | ⟨1, _⟩ =>
        apply Fin.ext
        change (d.start j idx (1 : Fin 2) + (d.window j (1 : Fin 2) : ℤ)).toNat = c.val
        rw [hs1, hw1, ← hjc]; omega
  · rename_i h
    constructor
    · intro he
      cases he
    · rintro ⟨he, hjc⟩
      exfalso
      apply h
      refine Fin.forall_fin_two.2 ⟨?_, ?_⟩
      · rw [hs0, hw0, he]
        refine ⟨by omega, ?_⟩
        change ((i.val : ℤ) + ((0 : ℕ) : ℤ)) < ((N : ℕ) : ℤ)
        omega
      · rw [hs1, hw1]
        refine ⟨by omega, ?_⟩
        change ((0 : ℤ) + (((j 1).val : ℕ) : ℤ)) < ((C : ℕ) : ℤ)
        omega

end Rows

theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (i : Fin N) (c : Fin C) :
    Ideal.hostScatterAdd d x idx upd (ix2 i c)
      = x (ix2 i c) + ∑ p : Fin n, if (idx (ix2 p (0 : Fin 1))).toInt = (i.val : ℤ) then upd (ix2 p c) else 0 := by
  unfold Ideal.hostScatterAdd
  congr 1
  rw [Finset.sum_filter, sum_idx2]
  refine Finset.sum_congr rfl fun p _ => ?_
  have hb : ∀ b : Fin C, (if d.resultIdx? (ix2 p b) idx = some (ix2 i c) then upd (ix2 p b) else 0)
      = if b = c then (if (idx (ix2 p (0 : Fin 1))).toInt = (i.val : ℤ) then upd (ix2 p b) else 0) else 0 := by
    intro b
    have hiff : d.resultIdx? (ix2 p b) idx = some (ix2 i c)
        ↔ (idx (ix2 p (0 : Fin 1))).toInt = (i.val : ℤ) ∧ b = c :=
      rows_resultIdx d huw hiw hsd hiv idx (ix2 p b) i c
    by_cases h1 : (idx (ix2 p (0 : Fin 1))).toInt = (i.val : ℤ)
    · by_cases h2 : b = c
      · rw [if_pos h2, if_pos h1, if_pos (hiff.2 ⟨h1, h2⟩)]
      · rw [if_neg h2, if_neg (fun h => h2 (hiff.1 h).2)]
    · by_cases h2 : b = c
      · rw [if_pos h2, if_neg h1, if_neg (fun h => h1 (hiff.1 h).1)]
      · rw [if_neg h2, if_neg (fun h => h2 (hiff.1 h).2)]
  rw [Finset.sum_congr rfl (fun b _ => hb b), Finset.sum_ite_eq']
  rw [if_pos (Finset.mem_univ c)]

section GatherRows
variable {N C n w : Nat} (d : GatherDims ⟨2, ![N, C]⟩ ⟨2, ![n, 1]⟩ ⟨2, ![n, C]⟩)
  (hoff : d.offsetDims = [1]) (hcoll : d.collapsedSliceDims = [0]) (hob : d.operandBatchingDims = [])
  (hsim : d.startIndexMap = [0]) (hivd : d.indexVectorDim = 1)
include hoff hcoll hob hsim hivd

private theorem gather_batchDims (X : Fin 2) (hX : X ∈ d.batchDims) : X = 0 := by
  have h1 : X ∉ d.offsetDims := by
    have := hX
    simp only [GatherDims.batchDims, Shape.kept, List.mem_filter, List.mem_finRange, true_and, decide_eq_true_eq] at this
    exact this
  rw [hoff, List.mem_singleton] at h1
  match X, h1 with
  | ⟨0, _⟩, _ => rfl
  | ⟨1, _⟩, h => exact absurd rfl h

private theorem gather_coord0 (idx : IVec ⟨2, ![n, 1]⟩ w) (j : (⟨2, ![n, C]⟩ : Shape).Idx) :
    d.start j idx (0 : Fin 2) + d.batchCoord j (0 : Fin 2) + d.offCoord j (0 : Fin 2)
      = min (idx (ix2 (j 0) (0 : Fin 1))).toInt.toNat (N - 1) := by
  have hb : (0 : Fin 2) ∉ d.operandBatchingDims := by rw [hob]; exact List.not_mem_nil
  have hc : (0 : Fin 2) ∈ d.collapsedSliceDims := by rw [hcoll]; exact List.mem_singleton.mpr rfl
  have hk : (0 : Fin 2) ∉ d.sKept := fun h => ((d.mem_sKept _).1 h).1 hc
  have hm : (0 : Fin 2) ∈ d.startIndexMap := by rw [hsim]; exact List.mem_singleton.mpr rfl
  have hsl : d.sliceSizes (0 : Fin 2) = 1 := d.slice_collapsed _ hc
  rw [d.batchCoord_eq_zero j _ hb, d.offCoord_eq_zero j _ hk]
  simp only [Nat.add_zero]
  unfold GatherDims.start
  rw [dif_pos hm, hsl]
  change min _ (N - 1) = _
  congr 4
  funext b
  match b with
  | ⟨0, _⟩ =>
    unfold GatherDims.siIdx
    rw [dif_neg (by rw [hivd]; exact Nat.zero_ne_one)]
    unfold GatherDims.siCoord
    apply Fin.ext
    simp only [Fin.val_cast]
    have e : ∀ X : Fin 2, X ∈ d.batchDims → (j X).val = (j 0).val := fun X hX => by
      rw [gather_batchDims d hoff hcoll hob hsim hivd X hX]
    exact e _ (List.getElem_mem _)
  | ⟨1, _⟩ =>
    unfold GatherDims.siIdx
    rw [dif_pos (by rw [hivd])]
    apply Fin.ext
    show List.idxOf (0 : Fin 2) d.startIndexMap = 0
    rw [hsim]; simp

private theorem gather_coord1 (idx : IVec ⟨2, ![n, 1]⟩ w) (j : (⟨2, ![n, C]⟩ : Shape).Idx) :
    d.start j idx (1 : Fin 2) + d.batchCoord j (1 : Fin 2) + d.offCoord j (1 : Fin 2) = (j 1).val := by
  have hb : (1 : Fin 2) ∉ d.operandBatchingDims := by rw [hob]; exact List.not_mem_nil
  have hc : (1 : Fin 2) ∉ d.collapsedSliceDims := by
    rw [hcoll, List.mem_singleton]
    intro h
    exact Nat.one_ne_zero (congrArg Fin.val h)
  have hk : (1 : Fin 2) ∈ d.sKept := (d.mem_sKept _).2 ⟨hc, hb⟩
  have hm : (1 : Fin 2) ∉ d.startIndexMap := by
    rw [hsim, List.mem_singleton]
    intro h
    exact Nat.one_ne_zero (congrArg Fin.val h)
  rw [d.batchCoord_eq_zero j _ hb, Nat.add_zero]
  unfold GatherDims.start
  rw [dif_neg hm, Nat.zero_add]
  unfold GatherDims.offCoord
  rw [dif_pos hk]
  have e : ∀ X : Fin 2, X ∈ d.offsetDims → (j X).val = (j 1).val := fun X hX => by
    rw [hoff, List.mem_singleton] at hX
    rw [hX]
  exact e _ (List.getElem_mem _)

end GatherRows

theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (c : Fin C) (hN : 0 < N) :
    Host.gather d x idx (ix2 p c)
      = x (ix2 (⟨min (idx (ix2 p (0 : Fin 1))).toInt.toNat (N - 1), by omega⟩ : Fin N) c) := by
  unfold Host.gather
  congr 1
  funext a
  match a with
  | ⟨0, _⟩ =>
    apply Fin.ext
    exact gather_coord0 d hoff hcoll hob hsim hivd idx (ix2 p c)
  | ⟨1, _⟩ =>
    apply Fin.ext
    exact gather_coord1 d hoff hcoll hob hsim hivd idx (ix2 p c)

end Cert.Gcn.Lib

end
-- ==== Proof.KI.PoolLaw.lean ====
import proofs.«401110_j833223655738_3_alg».proof.Proof.Gen.KernelIdeal.Skeleton
import proofs.«401110_j833223655738_3_alg».proof.Proof.LibScatterGather
import proofs.«401110_j833223655738_3_alg».proof.Proof.Gen.ReferenceIdeal
import proofs.«401110_j833223655738_3_alg».proof.Proof.RI.Terms
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws
import Idealize.ShloMosaic.Lib.StableHlo.Predicate

set_option maxRecDepth 16384

noncomputable section

open scoped BigOperators

namespace Cert.KernelIdeal.PoolLaw

open Idealize.ShloMosaic Idealize.ShloMosaic.ValueIdx Cert.KernelIdeal

theorem member_mul (x y : BitVec 32) (h : EReal) :
    (FloatOps.sitofp (F := Ideal) .f32 ((IntOp.cmpi .eq x y).setWidth 32) : Ideal .f32) * h
      = if x = y then h else 0 := by
  by_cases e : x = y
  · rw [if_pos e, (StableHlo.Predicate.cmpi_eq_iff.2 e : IntOp.cmpi .eq x y = 1#1)]
    show ((((1#1 : BitVec 1).setWidth 32).toInt : ℝ) : EReal) * h = h
    have : ((1#1 : BitVec 1).setWidth 32).toInt = 1 := by decide
    rw [this]; norm_num
  · have hz : IntOp.cmpi .eq x y = 0#1 :=
      eq_zero_of_ne_one fun h1 => e (StableHlo.Predicate.cmpi_eq_iff.1 h1)
    rw [if_neg e, hz]
    show ((((0#1 : BitVec 1).setWidth 32).toInt : ℝ) : EReal) * h = 0
    have : ((0#1 : BitVec 1).setWidth 32).toInt = 0 := by decide
    rw [this]; norm_num

theorem onehot_lhs_0 (i : S256x64.Idx) (q : dot_S5000x256_S5000x64_S256x64_0_0_1_1_n_n.contr.Idx) :
    (dot_S5000x256_S5000x64_S256x64_0_0_1_1_n_n.lhsIdx i q 0).val = (q ⟨0, by decide⟩).val :=
  dot_S5000x256_S5000x64_S256x64_0_0_1_1_n_n.lhsIdx_val_of_single rfl i q
theorem onehot_lhs_1 (i : S256x64.Idx) (q : dot_S5000x256_S5000x64_S256x64_0_0_1_1_n_n.contr.Idx) :
    (dot_S5000x256_S5000x64_S256x64_0_0_1_1_n_n.lhsIdx i q 1).val = (i 0).val := by
  unfold DotDims.lhsIdx
  rw [dif_neg (show ¬(1 : Fin S5000x256.rank) ∈ dot_S5000x256_S5000x64_S256x64_0_0_1_1_n_n.lhsBatch by decide),
    dif_pos (show (1 : Fin S5000x256.rank) ∈ dot_S5000x256_S5000x64_S256x64_0_0_1_1_n_n.lhsNonContracting by decide)]
  rfl

theorem onehot_rhs_0 (i : S256x64.Idx) (q : dot_S5000x256_S5000x64_S256x64_0_0_1_1_n_n.contr.Idx) :
    (dot_S5000x256_S5000x64_S256x64_0_0_1_1_n_n.rhsIdx i q 0).val = (q ⟨0, by decide⟩).val :=
  dot_S5000x256_S5000x64_S256x64_0_0_1_1_n_n.rhsIdx_val_of_single rfl i q
theorem onehot_rhs_1 (i : S256x64.Idx) (q : dot_S5000x256_S5000x64_S256x64_0_0_1_1_n_n.contr.Idx) :
    (dot_S5000x256_S5000x64_S256x64_0_0_1_1_n_n.rhsIdx i q 1).val = (i 1).val := by
  unfold DotDims.rhsIdx
  rw [dif_neg (show ¬(1 : Fin S5000x64.rank) ∈ dot_S5000x256_S5000x64_S256x64_0_0_1_1_n_n.rhsBatch by decide),
    dif_pos (show (1 : Fin S5000x64.rank) ∈ dot_S5000x256_S5000x64_S256x64_0_0_1_1_n_n.rhsNonContracting by decide)]
  rfl

theorem batch_spread_apply (bb : IVec S5000x1 32) (h : S5000x1.Broadcasts S5000x256) (n : Fin 5000) (g : Fin 256) :
    broadcastTo S5000x256 bb h (ix2 n g) = bb (ix2 n (0 : Fin 1)) := by
  refine broadcastTo_apply bb h (ix2 n g) (ix2 n (0 : Fin 1)) fun a => ?_
  match a with
  | ⟨0, _⟩ => rfl
  | ⟨1, _⟩ => rfl

theorem tile_apply (bb : Vec Ideal S5000x1 .i32) (hb : Vec Ideal S5000x64 .f32) (acc : Vec Ideal S256x64 .f32)
    (g : Fin 256) (d : Fin 64) :
    Gen.k5_pay2 (F := Ideal) bb hb acc (ix2 g d)
      = acc (ix2 g d) + ∑ n : Fin 5000, if bb (ix2 n (0 : Fin 1)) = BitVec.ofNat 32 g.val then hb (ix2 n d) else 0 := by
  unfold Gen.k5_pay2
  simp only [shapeCast_self]
  rw [addf_apply]
  congr 1
  simp only [matmul]
  rw [Ideal.matmul_constant_zero_apply,
    ← Equiv.sum_comp (contrEquiv1 dot_S5000x256_S5000x64_S256x64_0_0_1_1_n_n 5000 rfl rfl).symm]
  refine Finset.sum_congr rfl fun n _ => ?_
  have hk := contrEquiv1_symm_val dot_S5000x256_S5000x64_S256x64_0_0_1_1_n_n 5000 rfl rfl n
  have el : dot_S5000x256_S5000x64_S256x64_0_0_1_1_n_n.lhsIdx (ix2 g d)
      ((contrEquiv1 dot_S5000x256_S5000x64_S256x64_0_0_1_1_n_n 5000 rfl rfl).symm n) = ix2 n g :=
    funext fun a => Fin.ext (by
      match a with
      | ⟨0, _⟩ => exact (onehot_lhs_0 _ _).trans hk
      | ⟨1, _⟩ => exact onehot_lhs_1 _ _)
  have er : dot_S5000x256_S5000x64_S256x64_0_0_1_1_n_n.rhsIdx (ix2 g d)
      ((contrEquiv1 dot_S5000x256_S5000x64_S256x64_0_0_1_1_n_n 5000 rfl rfl).symm n) = ix2 n d :=
    funext fun a => Fin.ext (by
      match a with
      | ⟨0, _⟩ => exact (onehot_rhs_0 _ _).trans hk
      | ⟨1, _⟩ => exact onehot_rhs_1 _ _)
  rw [el, er, truncf_apply, truncf_apply, sitofp_apply, extui_apply]
  show (FloatOps.sitofp (F := Ideal) .f32
      ((IntOp.cmpi .eq (broadcastTo S5000x256 bb _ (ix2 n g)) (iota .tc S5000x256 32 [1] _ (ix2 n g))).setWidth 32) : Ideal .f32)
      * hb (ix2 n d) = _
  rw [batch_spread_apply, iota_single_apply, member_mul]

theorem reset_apply (j : S256x64.Idx) : Gen.k5_pay1 (F := Ideal) j = 0 := by
  unfold Gen.k5_pay1
  simp only [shapeCast_self]
  show Ideal.ofBits .f32 0x00000000#32 = 0
  exact Ideal.ofBits_zero_f32

def accAfter (bbs : ℕ → Vec Ideal S5000x1 .i32) (hbs : ℕ → Vec Ideal S5000x64 .f32) : ℕ → Vec Ideal S256x64 .f32
  | 0 => Gen.k5_pay2 (F := Ideal) (bbs 0) (hbs 0) (Gen.k5_pay1 (F := Ideal))
  | t + 1 => Gen.k5_pay2 (F := Ideal) (bbs (t + 1)) (hbs (t + 1)) (accAfter bbs hbs t)

theorem accAfter_apply (bbs : ℕ → Vec Ideal S5000x1 .i32) (hbs : ℕ → Vec Ideal S5000x64 .f32) (t : ℕ)
    (g : Fin 256) (d : Fin 64) :
    accAfter bbs hbs t (ix2 g d)
      = ∑ s ∈ Finset.range (t + 1), ∑ n : Fin 5000,
          if bbs s (ix2 n (0 : Fin 1)) = BitVec.ofNat 32 g.val then hbs s (ix2 n d) else 0 := by
  induction t with
  | zero =>
    show Gen.k5_pay2 (F := Ideal) (bbs 0) (hbs 0) (Gen.k5_pay1 (F := Ideal)) (ix2 g d) = _
    rw [tile_apply, reset_apply, zero_add, Finset.sum_range_one]
  | succ t ih =>
    show Gen.k5_pay2 (F := Ideal) (bbs (t + 1)) (hbs (t + 1)) (accAfter bbs hbs t) (ix2 g d) = _
    rw [tile_apply, ih, Finset.sum_range_succ _ (t + 1)]

def tileRow (t : Fin 10) (n : Fin 5000) : Fin 50000 :=
  ⟨5000 * t.val + n.val, by have := t.isLt; have := n.isLt; omega⟩

theorem sum_tiles {M : Type*} [AddCommMonoid M] (f : Fin 50000 → M) :
    ∑ i : Fin 50000, f i = ∑ t : Fin 10, ∑ n : Fin 5000, f (tileRow t n) := by
  rw [← Fintype.sum_prod_type' (f := fun t n => f (tileRow t n))]
  refine (Fintype.sum_equiv (finProdFinEquiv (m := 10) (n := 5000)) _ f fun x => congrArg f (Fin.ext ?_)).symm
  show 5000 * x.1.val + x.2.val = x.2.val + 5000 * x.1.val
  omega

theorem ten_tiles (batch2 : Vec Ideal S50000x1 .i32) (h : Vec Ideal S50000x64 .f32)
    (bbs : ℕ → Vec Ideal S5000x1 .i32) (hbs : ℕ → Vec Ideal S5000x64 .f32)
    (hbb : ∀ (t : Fin 10) (n : Fin 5000), bbs t.val (ix2 n (0 : Fin 1)) = batch2 (ix2 (tileRow t n) (0 : Fin 1)))
    (hhb : ∀ (t : Fin 10) (n : Fin 5000) (d : Fin 64), hbs t.val (ix2 n d) = h (ix2 (tileRow t n) d))
    (g : Fin 256) (d : Fin 64) :
    accAfter bbs hbs 9 (ix2 g d)
      = ∑ n : Fin 50000, if batch2 (ix2 n (0 : Fin 1)) = BitVec.ofNat 32 g.val then h (ix2 n d) else 0 := by
  rw [accAfter_apply, Finset.sum_range, sum_tiles]
  refine Finset.sum_congr rfl fun t _ => Finset.sum_congr rfl fun n _ => ?_
  rw [hbb t n, hhb t n d]

theorem toInt_eq_graph_iff (w : BitVec 32) (g : Fin 256) : w.toInt = (g.val : ℤ) ↔ w = BitVec.ofNat 32 g.val := by
  have hg := g.isLt
  have hw := w.isLt
  rw [← BitVec.toNat_inj, BitVec.toNat_ofNat, BitVec.toInt_eq_toNat_cond]
  constructor
  · intro h; split at h <;> omega
  · intro h; split <;> omega

theorem words_column_apply (batch : Cert.ReferenceIdeal.S50000.Idx → BitVec 32)
    (hbc : Cert.ReferenceIdeal.S50000.BroadcastsInDim Cert.ReferenceIdeal.S50000x1 (![0] : Fin 1 → Fin Cert.ReferenceIdeal.S50000x1.rank))
    (n : Fin 50000) :
    broadcastInDim Cert.ReferenceIdeal.S50000x1 ![0] hbc batch (ix2 n (0 : Fin 1)) = batch (ix1 n) := by
  refine broadcastInDim_apply _ hbc batch (ix2 n (0 : Fin 1)) (ix1 n) fun a => ?_
  match a with
  | ⟨0, _⟩ => rfl

theorem sums_apply (h : (⟨Cert.ReferenceIdeal.S50000x64, .f32⟩ : BufTy).Contents (Elt Ideal))
    (batch : (⟨Cert.ReferenceIdeal.S50000, .i32⟩ : BufTy).Contents (Elt Ideal)) (g : Fin 256) (d : Fin 64) :
    Cert.ReferenceIdeal.Terms.rSums (F := Ideal) h batch (ix2 g d)
      = ∑ n : Fin 50000, if batch (ix1 n) = BitVec.ofNat 32 g.val then h (ix2 n d) else 0 := by
  unfold Cert.ReferenceIdeal.Terms.rSums
  show Ideal.hostScatterAdd Cert.ReferenceIdeal.scatter_S256x64_S50000x1_S50000x64_1_0_0_1 _ _ h (ix2 g d) = _
  rw [Cert.Gcn.Lib.scatterAdd_rows_apply _ rfl rfl rfl rfl]
  have hz : ∀ x : EReal, Ideal.ofBits .f32 0x00000000#32 + x = x := fun x => by rw [Ideal.ofBits_zero_f32, zero_add]
  refine (hz _).trans (Finset.sum_congr rfl fun p _ => ?_)
  rw [words_column_apply]
  exact if_congr (toInt_eq_graph_iff _ g) rfl rfl

-- The final linear map's contraction is the plain 256×64 by 64×2 product.
theorem lin_sum (L : S256x64.Idx → EReal) (R : S64x2.Idx → EReal) (g : Fin 256) (c : Fin 2) :
    ∑ q : dot_S256x64_S64x2_S256x2_1_0_0_1_n_n.contr.Idx,
        L (dot_S256x64_S64x2_S256x2_1_0_0_1_n_n.lhsIdx (ix2 g c) q) * R (dot_S256x64_S64x2_S256x2_1_0_0_1_n_n.rhsIdx (ix2 g c) q)
      = ∑ k : Fin 64, L (ix2 g k) * R (ix2 k c) :=
  (Ideal.dotGeneral_apply (φ₁ := .f32) (φ₂ := .f32) dot_S256x64_S64x2_S256x2_1_0_0_1_n_n none default L R (ix2 g c)).symm.trans
    (StackMember.dotGeneral_plain_apply (φ₁ := .f32) (φ₂ := .f32) none L R g c)

theorem lin_sum_ref (L : S256x64.Idx → EReal) (R : S64x2.Idx → EReal) (g : Fin 256) (c : Fin 2) :
    ∑ q : Cert.ReferenceIdeal.dot_S256x64_S64x2_S256x2_1_0_0_1_n_n.contr.Idx,
        L (Cert.ReferenceIdeal.dot_S256x64_S64x2_S256x2_1_0_0_1_n_n.lhsIdx (ix2 g c) q)
          * R (Cert.ReferenceIdeal.dot_S256x64_S64x2_S256x2_1_0_0_1_n_n.rhsIdx (ix2 g c) q)
      = ∑ k : Fin 64, L (ix2 g k) * R (ix2 k c) :=
  lin_sum L R g c

def meanLin (S : S256x64.Idx → EReal) (cnt : Fin 256 → EReal) (W : S64x2.Idx → EReal) (b : Fin 2 → EReal)
    (g : Fin 256) (c : Fin 2) : EReal :=
  (∑ k : Fin 64, Ideal.div (S (ix2 g k)) (max (cnt g) (Ideal.ofBits .f32 0x3F800000#32)) * W (ix2 k c)) + b c

theorem sizes_spread_apply {α : Type} (x : S256x1.Idx → α) (h : S256x1.Broadcasts S256x64) (g : Fin 256) (k : Fin 64) :
    broadcastTo S256x64 x h (ix2 g k) = x (ix2 g (0 : Fin 1)) := by
  refine broadcastTo_apply x h (ix2 g k) (ix2 g (0 : Fin 1)) fun a => ?_
  match a with
  | ⟨0, _⟩ => rfl
  | ⟨1, _⟩ => rfl

theorem bias_spread_apply {α : Type} (x : S1x2.Idx → α) (h : S1x2.Broadcasts S256x2) (g : Fin 256) (c : Fin 2) :
    broadcastTo S256x2 x h (ix2 g c) = x (ix2 (0 : Fin 1) c) := by
  refine broadcastTo_apply x h (ix2 g c) (ix2 (0 : Fin 1) c) fun a => ?_
  match a with
  | ⟨0, _⟩ => rfl
  | ⟨1, _⟩ => rfl

theorem tail_apply (S : Vec Ideal S256x64 .f32) (cnts2 : Vec Ideal S256x1 .f32) (Wlin : Vec Ideal S64x2 .f32)
    (blin2 : Vec Ideal S1x2 .f32) (g : Fin 256) (c : Fin 2) :
    Gen.k5_pay3 (F := Ideal) S cnts2 Wlin blin2 (ix2 g c)
      = meanLin S (fun g => cnts2 (ix2 g (0 : Fin 1))) Wlin (fun c => blin2 (ix2 (0 : Fin 1) c)) g c := by
  unfold Gen.k5_pay3 meanLin
  simp only [shapeCast_self]
  rw [addf_apply]
  congr 1
  · simp only [matmul]
    rw [Ideal.matmul_constant_zero_apply, lin_sum]
    refine Finset.sum_congr rfl fun k _ => ?_
    rw [divf_apply, sizes_spread_apply]
    rfl
  · exact bias_spread_apply _ _ g c

theorem ref_column_apply {α : Type} (x : Cert.ReferenceIdeal.S256.Idx → α)
    (hb : Cert.ReferenceIdeal.S256.BroadcastsInDim Cert.ReferenceIdeal.S256x1 (![0] : Fin 1 → Fin Cert.ReferenceIdeal.S256x1.rank))
    (g : Fin 256) :
    broadcastInDim Cert.ReferenceIdeal.S256x1 ![0] hb x (ix2 g (0 : Fin 1)) = x (ix1 g) := by
  refine broadcastInDim_apply _ hb x (ix2 g (0 : Fin 1)) (ix1 g) fun a => ?_
  match a with
  | ⟨0, _⟩ => rfl

theorem ref_sizes_spread_apply {α : Type} (x : Cert.ReferenceIdeal.S256x1.Idx → α)
    (hb : Cert.ReferenceIdeal.S256x1.BroadcastsInDim Cert.ReferenceIdeal.S256x64 (![0, 1] : Fin 2 → Fin Cert.ReferenceIdeal.S256x64.rank))
    (g : Fin 256) (k : Fin 64) :
    broadcastInDim Cert.ReferenceIdeal.S256x64 ![0, 1] hb x (ix2 g k) = x (ix2 g (0 : Fin 1)) := by
  refine broadcastInDim_apply _ hb x (ix2 g k) (ix2 g (0 : Fin 1)) fun a => ?_
  match a with
  | ⟨0, _⟩ => rfl
  | ⟨1, _⟩ => rfl

theorem ref_row_apply {α : Type} (x : Cert.ReferenceIdeal.S2.Idx → α)
    (hb : Cert.ReferenceIdeal.S2.BroadcastsInDim Cert.ReferenceIdeal.S1x2 (![1] : Fin 1 → Fin Cert.ReferenceIdeal.S1x2.rank))
    (c : Fin 2) :
    broadcastInDim Cert.ReferenceIdeal.S1x2 ![1] hb x (ix2 (0 : Fin 1) c) = x (ix1 c) := by
  refine broadcastInDim_apply _ hb x (ix2 (0 : Fin 1) c) (ix1 c) fun a => ?_
  match a with
  | ⟨0, _⟩ => rfl

theorem ref_bias_spread_apply {α : Type} (x : Cert.ReferenceIdeal.S1x2.Idx → α)
    (hb : Cert.ReferenceIdeal.S1x2.BroadcastsInDim Cert.ReferenceIdeal.S256x2 (![0, 1] : Fin 2 → Fin Cert.ReferenceIdeal.S256x2.rank))
    (g : Fin 256) (c : Fin 2) :
    broadcastInDim Cert.ReferenceIdeal.S256x2 ![0, 1] hb x (ix2 g c) = x (ix2 (0 : Fin 1) c) := by
  refine broadcastInDim_apply _ hb x (ix2 g c) (ix2 (0 : Fin 1) c) fun a => ?_
  match a with
  | ⟨0, _⟩ => rfl
  | ⟨1, _⟩ => rfl

theorem hostDivf_apply {s : Shape} {φ : FTy} (a b : FVec Ideal s φ) (i : s.Idx) :
    Host.divf a b i = Ideal.div (a i) (b i) := rfl

theorem rPool_apply (h : (⟨Cert.ReferenceIdeal.S50000x64, .f32⟩ : BufTy).Contents (Elt Ideal))
    (batch : (⟨Cert.ReferenceIdeal.S50000, .i32⟩ : BufTy).Contents (Elt Ideal))
    (Wlin : (⟨Cert.ReferenceIdeal.S64x2, .f32⟩ : BufTy).Contents (Elt Ideal))
    (blin : (⟨Cert.ReferenceIdeal.S2, .f32⟩ : BufTy).Contents (Elt Ideal)) (g : Fin 256) (c : Fin 2) :
    Cert.ReferenceIdeal.Terms.rPool (F := Ideal) h batch Wlin blin (ix2 g c)
      = meanLin (Cert.ReferenceIdeal.Terms.rSums (F := Ideal) h batch)
          (fun g => Cert.ReferenceIdeal.Terms.rCnts (F := Ideal) batch (ix1 g)) Wlin (fun c => blin (ix1 c)) g c := by
  unfold Cert.ReferenceIdeal.Terms.rPool meanLin
  refine congrArg₂ (fun x y : EReal => x + y) ?_ ?_
  · simp only [Host.dotGeneral]
    rw [Ideal.dotGeneral_apply, lin_sum_ref]
    refine Finset.sum_congr rfl fun k _ => ?_
    rw [hostDivf_apply]
    rw [ref_sizes_spread_apply, ref_column_apply]
    rfl
  · rw [ref_bias_spread_apply, ref_row_apply]

theorem tail_eq (h : (⟨Cert.ReferenceIdeal.S50000x64, .f32⟩ : BufTy).Contents (Elt Ideal))
    (batch : (⟨Cert.ReferenceIdeal.S50000, .i32⟩ : BufTy).Contents (Elt Ideal))
    (Wlin : (⟨Cert.ReferenceIdeal.S64x2, .f32⟩ : BufTy).Contents (Elt Ideal))
    (blin : (⟨Cert.ReferenceIdeal.S2, .f32⟩ : BufTy).Contents (Elt Ideal))
    (S : Vec Ideal S256x64 .f32) (cnts2 : Vec Ideal S256x1 .f32) (blin2 : Vec Ideal S1x2 .f32)
    (hS : ∀ (g : Fin 256) (d : Fin 64), S (ix2 g d) = Cert.ReferenceIdeal.Terms.rSums (F := Ideal) h batch (ix2 g d))
    (hc : ∀ g : Fin 256, cnts2 (ix2 g (0 : Fin 1)) = Cert.ReferenceIdeal.Terms.rCnts (F := Ideal) batch (ix1 g))
    (hb : ∀ c : Fin 2, blin2 (ix2 (0 : Fin 1) c) = blin (ix1 c)) :
    Gen.k5_pay3 (F := Ideal) S cnts2 Wlin blin2 = Cert.ReferenceIdeal.Terms.rPool (F := Ideal) h batch Wlin blin := by
  funext j
  obtain ⟨g, c, rfl⟩ : ∃ (g : Fin 256) (c : Fin 2), j = ix2 g c := ⟨j 0, j 1, eq_ix2 j⟩
  rw [tail_apply, rPool_apply]
  unfold meanLin
  simp only [hS, hc, hb]

theorem pool_eq (h : (⟨Cert.ReferenceIdeal.S50000x64, .f32⟩ : BufTy).Contents (Elt Ideal))
    (batch : (⟨Cert.ReferenceIdeal.S50000, .i32⟩ : BufTy).Contents (Elt Ideal))
    (Wlin : (⟨Cert.ReferenceIdeal.S64x2, .f32⟩ : BufTy).Contents (Elt Ideal))
    (blin : (⟨Cert.ReferenceIdeal.S2, .f32⟩ : BufTy).Contents (Elt Ideal))
    (bbs : ℕ → Vec Ideal S5000x1 .i32) (hbs : ℕ → Vec Ideal S5000x64 .f32)
    (cnts2 : Vec Ideal S256x1 .f32) (blin2 : Vec Ideal S1x2 .f32)
    (hbb : ∀ (t : Fin 10) (n : Fin 5000), bbs t.val (ix2 n (0 : Fin 1)) = batch (ix1 (tileRow t n)))
    (hhb : ∀ (t : Fin 10) (n : Fin 5000) (d : Fin 64), hbs t.val (ix2 n d) = h (ix2 (tileRow t n) d))
    (hc : ∀ g : Fin 256, cnts2 (ix2 g (0 : Fin 1)) = Cert.ReferenceIdeal.Terms.rCnts (F := Ideal) batch (ix1 g))
    (hb : ∀ c : Fin 2, blin2 (ix2 (0 : Fin 1) c) = blin (ix1 c)) :
    Gen.k5_pay3 (F := Ideal) (accAfter bbs hbs 9) cnts2 Wlin blin2
      = Cert.ReferenceIdeal.Terms.rPool (F := Ideal) h batch Wlin blin :=
  tail_eq h batch Wlin blin _ cnts2 blin2 (fun g d => by
    rw [ten_tiles (fun j => batch (ix1 (j 0))) h bbs hbs (fun t n => hbb t n) hhb g d, sums_apply]) hc hb

end Cert.KernelIdeal.PoolLaw
-- ==== Proof.KI.Pool5Val.lean ====
import proofs.«401110_j833223655738_3_alg».proof.Proof.KI.Pool5
import proofs.«401110_j833223655738_3_alg».proof.Proof.KI.PoolLaw
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.PoolLaw (tileRow accAfter)

variable (V : (c : Dev nD) → (b : Ref sig .tc) → Buf (Elt Ideal) ((c : Thread nD τ).loc b))

def tileOf (t : Fin cfg5.N) : Fin 10 := ⟨t.val, lt_of_lt_of_eq t.isLt N_5⟩

theorem idx5_0 : ∀ t : Fin cfg5.N, win5_0.index t 0 = t.val ∧ win5_0.index t 1 = 0 :=
  (by decide +kernel : ∀ t : Fin grid5.N, win5_0.index t 0 = t.val ∧ win5_0.index t 1 = 0)
theorem idx5_1 : ∀ t : Fin cfg5.N, win5_1.index t 0 = t.val ∧ win5_1.index t 1 = 0 :=
  (by decide +kernel : ∀ t : Fin grid5.N, win5_1.index t 0 = t.val ∧ win5_1.index t 1 = 0)
theorem idx5_2 : ∀ t : Fin cfg5.N, win5_2.index t 0 = 0 ∧ win5_2.index t 1 = 0 :=
  (by decide +kernel : ∀ t : Fin grid5.N, win5_2.index t 0 = 0 ∧ win5_2.index t 1 = 0)
theorem idx5_3 : ∀ t : Fin cfg5.N, win5_3.index t 0 = 0 ∧ win5_3.index t 1 = 0 :=
  (by decide +kernel : ∀ t : Fin grid5.N, win5_3.index t 0 = 0 ∧ win5_3.index t 1 = 0)
theorem idx5_4 : ∀ t : Fin cfg5.N, win5_4.index t 0 = 0 ∧ win5_4.index t 1 = 0 :=
  (by decide +kernel : ∀ t : Fin grid5.N, win5_4.index t 0 = 0 ∧ win5_4.index t 1 = 0)

theorem feat_block_apply (c : Dev nD) (t : Fin cfg5.N) (n : Fin 5000) (d : Fin 64) :
    (iblk5 V c 0 t : Vec Ideal S5000x64 .f32) (ix2 n d) = V c main_v72 (ix2 (tileRow (tileOf t) n) d) := by
  unfold iblk5
  rw [View.read_apply]
  show V c main_v72 _ = V c main_v72 _
  congr 1
  funext a
  apply Fin.ext
  match a with
  | ⟨0, _⟩ =>
    show win5_0.index t 0 * 5000 + 1 * n.val = 5000 * t.val + n.val
    rw [(idx5_0 t).1]; omega
  | ⟨1, _⟩ =>
    show win5_0.index t 1 * 64 + 1 * d.val = d.val
    rw [(idx5_0 t).2]; omega

theorem words_block_apply (c : Dev nD) (t : Fin cfg5.N) (n : Fin 5000) :
    (iblk5 V c 1 t : Vec Ideal S5000x1 .i32) (ix2 n (0 : Fin 1))
      = V c main_v73 (ix2 (tileRow (tileOf t) n) (0 : Fin 1)) := by
  unfold iblk5
  rw [View.read_apply]
  show V c main_v73 _ = V c main_v73 _
  congr 1
  funext a
  apply Fin.ext
  match a with
  | ⟨0, _⟩ =>
    show win5_1.index t 0 * 5000 + 1 * n.val = 5000 * t.val + n.val
    rw [(idx5_1 t).1]; omega
  | ⟨1, _⟩ =>
    show win5_1.index t 1 * 1 + 1 * 0 = 0
    rw [(idx5_1 t).2]

theorem sizes_block_eq (c : Dev nD) (t : Fin cfg5.N) : (iblk5 V c 2 t : Vec Ideal S256x1 .f32) = V c main_v78 := by
  funext j
  unfold iblk5
  rw [View.read_apply]
  show V c main_v78 _ = V c main_v78 j
  congr 1
  funext a
  apply Fin.ext
  match a with
  | ⟨0, _⟩ =>
    show win5_2.index t 0 * 256 + 1 * (j 0).val = (j 0).val
    rw [(idx5_2 t).1]; omega
  | ⟨1, _⟩ =>
    show win5_2.index t 1 * 1 + 1 * (j 1).val = (j 1).val
    rw [(idx5_2 t).2]; omega

theorem weights_block_eq (c : Dev nD) (t : Fin cfg5.N) : (iblk5 V c 3 t : Vec Ideal S64x2 .f32) = V c main_arg17 := by
  funext j
  unfold iblk5
  rw [View.read_apply]
  show V c main_arg17 _ = V c main_arg17 j
  congr 1
  funext a
  apply Fin.ext
  match a with
  | ⟨0, _⟩ =>
    show win5_3.index t 0 * 64 + 1 * (j 0).val = (j 0).val
    rw [(idx5_3 t).1]; omega
  | ⟨1, _⟩ =>
    show win5_3.index t 1 * 2 + 1 * (j 1).val = (j 1).val
    rw [(idx5_3 t).2]; omega

theorem bias_block_eq (c : Dev nD) (t : Fin cfg5.N) : (iblk5 V c 4 t : Vec Ideal S1x2 .f32) = V c main_v79 := by
  funext j
  unfold iblk5
  rw [View.read_apply]
  show V c main_v79 _ = V c main_v79 j
  congr 1
  funext a
  apply Fin.ext
  match a with
  | ⟨0, _⟩ =>
    show win5_4.index t 0 * 1 + 1 * (j 0).val = (j 0).val
    rw [(idx5_4 t).1]; omega
  | ⟨1, _⟩ =>
    show win5_4.index t 1 * 2 + 1 * (j 1).val = (j 1).val
    rw [(idx5_4 t).2]; omega

def wordsAt (c : Dev nD) (n : ℕ) : Vec Ideal S5000x1 .i32 :=
  if h : n < cfg5.N then iblk5 V c 1 ⟨n, h⟩ else fun _ => (0 : BitVec 32)

def featsAt (c : Dev nD) (n : ℕ) : Vec Ideal S5000x64 .f32 :=
  if h : n < cfg5.N then iblk5 V c 0 ⟨n, h⟩ else fun _ => (0 : EReal)

theorem acc5_eq (c : Dev nD) : ∀ (n : ℕ) (hn : n < cfg5.N),
    acc5 V c n hn = accAfter (wordsAt V c) (featsAt V c) n
  | 0, hn => by
    show k5_pay2 (F := Ideal) (iblk5 V c 1 ⟨0, hn⟩) (iblk5 V c 0 ⟨0, hn⟩) (k5_pay1 (F := Ideal))
      = k5_pay2 (F := Ideal) (wordsAt V c 0) (featsAt V c 0) (k5_pay1 (F := Ideal))
    rw [wordsAt, featsAt, dif_pos hn, dif_pos hn]
  | n + 1, hn => by
    show k5_pay2 (F := Ideal) (iblk5 V c 1 ⟨n + 1, hn⟩) (iblk5 V c 0 ⟨n + 1, hn⟩) (acc5 V c n (Nat.lt_of_succ_lt hn))
      = k5_pay2 (F := Ideal) (wordsAt V c (n + 1)) (featsAt V c (n + 1)) (accAfter (wordsAt V c) (featsAt V c) n)
    rw [acc5_eq c n, wordsAt, featsAt, dif_pos hn, dif_pos hn]

theorem column_cast_apply {α : Type} {a : ℕ} (x : (⟨1, ![a]⟩ : Shape).Idx → α)
    (h : (⟨1, ![a]⟩ : Shape).ShapeCasts ⟨2, ![a, 1]⟩) (m : Fin a) :
    shapeCast ⟨2, ![a, 1]⟩ x h (ix2 m (0 : Fin 1)) = x (ix1 m) :=
  shapeCast_apply x h _ _ (by
    rw [Shape.rowMajor_val_two, Shape.rowMajor_val_one]
    show m.val = m.val * 1 + 0
    omega)

theorem out_last (c : Dev nD) (h9 : 9 < cfg5.N)
    (BATCH : (⟨Cert.ReferenceIdeal.S50000, .i32⟩ : BufTy).Contents (Elt Ideal))
    (BLIN : (⟨Cert.ReferenceIdeal.S2, .f32⟩ : BufTy).Contents (Elt Ideal))
    (hbt : (V c main_v73 : Vec Ideal S50000x1 .i32) = shapeCast S50000x1 BATCH shapeCasts_S50000_S50000x1)
    (hc : (V c main_v78 : Vec Ideal S256x1 .f32)
      = shapeCast S256x1 (Cert.ReferenceIdeal.Terms.rCnts (F := Ideal) BATCH) shapeCasts_S256_S256x1)
    (hbl : (V c main_v79 : Vec Ideal S1x2 .f32) = shapeCast S1x2 BLIN shapeCasts_S2_S1x2) :
    (outsAt5 V c 9 h9).1
      = Cert.ReferenceIdeal.Terms.rPool (F := Ideal) (V c main_v72) BATCH (V c main_arg17) BLIN := by
  show k5_pay3 (F := Ideal) (acc5 V c 9 h9) (iblk5 V c 2 ⟨9, h9⟩) (iblk5 V c 3 ⟨9, h9⟩) (iblk5 V c 4 ⟨9, h9⟩) = _
  rw [acc5_eq, sizes_block_eq, weights_block_eq, bias_block_eq]
  refine PoolLaw.pool_eq (V c main_v72) BATCH (V c main_arg17) BLIN _ _ _ _ ?_ ?_ ?_ ?_
  · intro t n
    have ht : t.val < cfg5.N := lt_of_lt_of_eq t.isLt N_5.symm
    rw [wordsAt, dif_pos ht, words_block_apply, hbt]
    exact column_cast_apply BATCH _ _
  · intro t n d
    have ht : t.val < cfg5.N := lt_of_lt_of_eq t.isLt N_5.symm
    rw [featsAt, dif_pos ht, feat_block_apply]
    rfl
  · intro g
    rw [hc]
    exact column_cast_apply _ _ g
  · intro c'
    rw [hbl]
    exact shapeCast_a_1a_apply BLIN _ (0 : Fin 1) c'

section Result
variable (c : Dev nD)
  (BATCH : (⟨Cert.ReferenceIdeal.S50000, .i32⟩ : BufTy).Contents (Elt Ideal))
  (BLIN : (⟨Cert.ReferenceIdeal.S2, .f32⟩ : BufTy).Contents (Elt Ideal))
  (hbt : (V c main_v73 : Vec Ideal S50000x1 .i32) = shapeCast S50000x1 BATCH shapeCasts_S50000_S50000x1)
  (hc : (V c main_v78 : Vec Ideal S256x1 .f32)
    = shapeCast S256x1 (Cert.ReferenceIdeal.Terms.rCnts (F := Ideal) BATCH) shapeCasts_S256_S256x1)
  (hbl : (V c main_v79 : Vec Ideal S1x2 .f32) = shapeCast S1x2 BLIN shapeCasts_S2_S1x2)

theorem result_block_geometry : ∀ a : Fin 2,
    win5_5.index t5_9 a * win5_5.size a = 0 ∧ win5_5.xsize (grid5.coords t5_9) a = S256x2.size a := by
  decide +kernel

theorem result_block_covers (i : ((cfg5.win 5).arr.view.loc (c.tc : Thread nD τ)).2.ty.Idx) :
    i ∈ ((cfg5.win 5).blk t5_9).view.set := by
  show i ∈ ((View.whole main_v80).slice (win5_5.rect t5_9)).set
  rw [View.set_slice_whole, Rect.mem_set_unit]
  intro a
  show win5_5.index t5_9 a * win5_5.size a ≤ (i a : ℕ)
    ∧ (i a : ℕ) < win5_5.index t5_9 a * win5_5.size a + win5_5.xsize (grid5.coords t5_9) a
  rw [(result_block_geometry a).1, (result_block_geometry a).2, Nat.zero_add]
  exact ⟨Nat.zero_le _, (i a).isLt⟩

variable (dat : Dat τ (Elt Ideal) Unit ℕ (UR sig nD τ) ℕ cfg5 c)
  (hafter : ∀ t : Fin cfg5.N, dat.after 5 t = (outsAt5 V c t.val t.isLt).1)
include hbt hc hbl hafter

theorem flushed5_eq (t : Fin cfg5.N) (hf : (cfg5.win 5).flush t = true) :
    dat.flushed 5 t = ((cfg5.win 5).blk t).view.read (Elt Ideal)
      (Cert.ReferenceIdeal.Terms.rPool (F := Ideal) (V c main_v72) BATCH (V c main_arg17) BLIN) := by
  have hlt : t.val < 10 := lt_of_lt_of_eq t.isLt N_5
  have h9 : t.val = 9 := by have := (flush5_5 t).mp hf; omega
  obtain rfl : t = t5_9 := Fin.ext h9
  have hleft : dat.after 5 t5_9
      = Cert.ReferenceIdeal.Terms.rPool (F := Ideal) (V c main_v72) BATCH (V c main_arg17) BLIN :=
    (hafter t5_9).trans (out_last V c t5_9.isLt BATCH BLIN hbt hc hbl)
  show (cfg5.win 5).cut (grid5.coords t5_9) (dat.after 5 t5_9) = _
  rw [hleft]
  have horigin : (fun a => win5_5.index t5_9 a * main_v80.ty.shape.size a) = fun _ => 0 :=
    funext fun a => (result_block_geometry a).1
  exact (Memref.read_access_unit_zero (Elt Ideal) main_v80 horigin
    (fun a => by rw [congrFun horigin a]; simp) _).symm

theorem final5_of : dat.arrAt 5 cfg5.N
    = Cert.ReferenceIdeal.Terms.rPool (F := Ideal) (V c main_v72) BATCH (V c main_arg17) BLIN :=
  dat.arrAt_eq_of_cover 5 _ (flushed5_eq V c BATCH BLIN hbt hc hbl dat hafter) fun i =>
    ⟨t5_9, (flush5_5 t5_9).mpr rfl, result_block_covers c i⟩

end Result

theorem final5 (c : Dev nD)
    (BATCH : (⟨Cert.ReferenceIdeal.S50000, .i32⟩ : BufTy).Contents (Elt Ideal))
    (BLIN : (⟨Cert.ReferenceIdeal.S2, .f32⟩ : BufTy).Contents (Elt Ideal))
    (hbt : (V c main_v73 : Vec Ideal S50000x1 .i32) = shapeCast S50000x1 BATCH shapeCasts_S50000_S50000x1)
    (hc : (V c main_v78 : Vec Ideal S256x1 .f32)
      = shapeCast S256x1 (Cert.ReferenceIdeal.Terms.rCnts (F := Ideal) BATCH) shapeCasts_S256_S256x1)
    (hbl : (V c main_v79 : Vec Ideal S1x2 .f32) = shapeCast S1x2 BLIN shapeCasts_S2_S1x2) :
    (dat5 (F := Ideal) V c).arrAt 5 cfg5.N
      = Cert.ReferenceIdeal.Terms.rPool (F := Ideal) (V c main_v72) BATCH (V c main_arg17) BLIN :=
  final5_of V c BATCH BLIN hbt hc hbl (dat5 (F := Ideal) V c) (after5_5 V c)

end Cert.KernelIdeal.Hand
-- ==== Proof.KI.Steps.lean ====
import proofs.«401110_j833223655738_3_alg».proof.Proof.KI.Host
import proofs.«401110_j833223655738_3_alg».proof.Proof.LibExit
import proofs.«401110_j833223655738_3_alg».proof.Proof.KI.Conv0Val
import proofs.«401110_j833223655738_3_alg».proof.Proof.KI.Bn1Val
import proofs.«401110_j833223655738_3_alg».proof.Proof.KI.Conv2Val
import proofs.«401110_j833223655738_3_alg».proof.Proof.KI.Bn3Val
import proofs.«401110_j833223655738_3_alg».proof.Proof.KI.Conv4Val
import proofs.«401110_j833223655738_3_alg».proof.Proof.KI.Pool5Val

set_option maxRecDepth 16384

noncomputable section

namespace Cert.KernelIdeal.Hand

open Idealize.ShloMosaic Idealize.ShloMosaic.TcCoe
open Cert.KernelIdeal Cert.KernelIdeal.Gen
open Cert.ReferenceIdeal (Terms.rAgg Terms.rMean Terms.rVar Terms.rCnts Terms.rConv Terms.rLin Terms.rBnRelu Terms.rPool)

variable (m : (ℓ : Loc nD τ sig) → Buf (Elt Ideal) ℓ) (outs : Gen.Outs (F := Ideal)) (c : Dev nD)

-- Each region's result array is one stage of the network applied to what the host stretch before it left in the operands.
theorem step0 :
    ((dat0 (F := Ideal) (atRefs (V1 m)) c).arrAt 5 cfg0.N : (⟨S50000x64, .f32⟩ : BufTy).Contents (Elt Ideal))
      = Terms.rLin (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  unfold Cert.ReferenceIdeal.Terms.rLin
  rw [final0 (atRefs (V1 m)) c (m ((c : Thread nD τ).loc main_arg6)) (entry0_v19 m c)]
  show Terms.rConv (F := Ideal) (V1 m c main_arg0) (V1 m c main_v18) (V1 m c main_arg4) (V1 m c main_arg5) _ = _
  rw [entry0_v18 m c, entry0_arg0 m c, entry0_arg4 m c, entry0_arg5 m c]

theorem step1 :
    ((dat1 (F := Ideal) (atRefs (V5 m outs)) c).arrAt 5 cfg1.N : (⟨S50000x64, .f32⟩ : BufTy).Contents (Elt Ideal))
      = Terms.rBnRelu (F := Ideal) (outs 2 main_v20 c) (Terms.rMean (F := Ideal) (outs 2 main_v20 c))
          (Terms.rVar (F := Ideal) (outs 2 main_v20 c)) (m ((c : Thread nD τ).loc main_arg13)) (m ((c : Thread nD τ).loc main_arg14)) := by
  rw [final1 (atRefs (V5 m outs)) c (Terms.rMean (F := Ideal) (outs 2 main_v20 c)) (Terms.rVar (F := Ideal) (outs 2 main_v20 c))
    (m ((c : Thread nD τ).loc main_arg13)) (m ((c : Thread nD τ).loc main_arg14)) (entry1_v25 m outs c) (entry1_v26 m outs c) (entry1_v27 m outs c) (entry1_v28 m outs c)]
  show Terms.rBnRelu (F := Ideal) (V5 m outs c main_v20) _ _ _ _ = _
  rw [entry1_v20 m outs c]

theorem step2 :
    ((dat2 (F := Ideal) (atRefs (V7 m outs)) c).arrAt 5 cfg2.N : (⟨S50000x64, .f32⟩ : BufTy).Contents (Elt Ideal))
      = Terms.rLin (F := Ideal) (outs 6 main_v29 c) (m ((c : Thread nD τ).loc main_arg1)) (m ((c : Thread nD τ).loc main_arg2)) (m ((c : Thread nD τ).loc main_arg7)) (m ((c : Thread nD τ).loc main_arg8)) (m ((c : Thread nD τ).loc main_arg9)) := by
  unfold Cert.ReferenceIdeal.Terms.rLin
  rw [final2 (atRefs (V7 m outs)) c (m ((c : Thread nD τ).loc main_arg9)) (entry2_v45 m outs c)]
  show Terms.rConv (F := Ideal) (V7 m outs c main_v29) (V7 m outs c main_v44) (V7 m outs c main_arg7) (V7 m outs c main_arg8) _ = _
  rw [entry2_v44 m outs c, entry2_v29 m outs c, entry2_arg7 m outs c, entry2_arg8 m outs c]

theorem step3 :
    ((dat3 (F := Ideal) (atRefs (V11 m outs)) c).arrAt 5 cfg3.N : (⟨S50000x64, .f32⟩ : BufTy).Contents (Elt Ideal))
      = Terms.rBnRelu (F := Ideal) (outs 8 main_v46 c) (Terms.rMean (F := Ideal) (outs 8 main_v46 c))
          (Terms.rVar (F := Ideal) (outs 8 main_v46 c)) (m ((c : Thread nD τ).loc main_arg15)) (m ((c : Thread nD τ).loc main_arg16)) := by
  rw [final3 (atRefs (V11 m outs)) c (Terms.rMean (F := Ideal) (outs 8 main_v46 c)) (Terms.rVar (F := Ideal) (outs 8 main_v46 c))
    (m ((c : Thread nD τ).loc main_arg15)) (m ((c : Thread nD τ).loc main_arg16)) (entry3_v51 m outs c) (entry3_v52 m outs c) (entry3_v53 m outs c) (entry3_v54 m outs c)]
  show Terms.rBnRelu (F := Ideal) (V11 m outs c main_v46) _ _ _ _ = _
  rw [entry3_v46 m outs c]

theorem step4 :
    ((dat4 (F := Ideal) (atRefs (V13 m outs)) c).arrAt 5 cfg4.N : (⟨S50000x64, .f32⟩ : BufTy).Contents (Elt Ideal))
      = Terms.rLin (F := Ideal) (outs 12 main_v55 c) (m ((c : Thread nD τ).loc main_arg1)) (m ((c : Thread nD τ).loc main_arg2)) (m ((c : Thread nD τ).loc main_arg10)) (m ((c : Thread nD τ).loc main_arg11)) (m ((c : Thread nD τ).loc main_arg12)) := by
  unfold Cert.ReferenceIdeal.Terms.rLin
  rw [final4 (atRefs (V13 m outs)) c (m ((c : Thread nD τ).loc main_arg12)) (entry4_v71 m outs c)]
  show Terms.rConv (F := Ideal) (V13 m outs c main_v55) (V13 m outs c main_v70) (V13 m outs c main_arg10) (V13 m outs c main_arg11) _ = _
  rw [entry4_v70 m outs c, entry4_v55 m outs c, entry4_arg10 m outs c, entry4_arg11 m outs c]

theorem step5 :
    ((dat5 (F := Ideal) (atRefs (V15 m outs)) c).arrAt 5 cfg5.N : (⟨S256x2, .f32⟩ : BufTy).Contents (Elt Ideal))
      = Terms.rPool (F := Ideal) (outs 14 main_v72 c) (m ((c : Thread nD τ).loc main_arg3)) (m ((c : Thread nD τ).loc main_arg17)) (m ((c : Thread nD τ).loc main_arg18)) := by
  rw [final5 (atRefs (V15 m outs)) c (m ((c : Thread nD τ).loc main_arg3)) (m ((c : Thread nD τ).loc main_arg18))
    (entry5_v73 m outs c) (entry5_v78 m outs c) (entry5_v79 m outs c)]
  show Terms.rPool (F := Ideal) (V15 m outs c main_v72) _ (V15 m outs c main_arg17) _ = _
  rw [entry5_v72 m outs c, entry5_arg17 m outs c]

end Cert.KernelIdeal.Hand
-- ==== Proof.KI.Chain.lean ====
import proofs.«401110_j833223655738_3_alg».proof.Proof.KI.Regs
import proofs.«401110_j833223655738_3_alg».proof.Proof.KI.Steps

noncomputable section

namespace Cert.KernelIdeal.Hand

open Idealize.ShloMosaic Idealize.ShloMosaic.TcCoe
open Idealize.SL Idealize.SL.Sem
open Cert.KernelIdeal Cert.KernelIdeal.Gen
open Cert.ReferenceIdeal (Terms.rLin Terms.rBlock Terms.rBnRelu Terms.rMean Terms.rVar Terms.rPool Terms.rAll)

variable (m : (ℓ : Loc nD τ sig) → Buf (Elt Ideal) ℓ) (c : Dev nD)

theorem res0_eq : res0 m c = Terms.rLin (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  step0 m c

theorem res1_eq : res1 m c = Terms.rBlock (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) := by
  refine (step1 m (outs0 m) c).trans ?_
  have e : outs0 m 2 main_v20 c = res0 m c := outsOf_2 ..
  rw [e, res0_eq]; rfl

theorem res2_eq : res2 m c = Terms.rLin (F := Ideal) (res1 m c) (m ((c : Thread nD τ).loc main_arg1)) (m ((c : Thread nD τ).loc main_arg2)) (m ((c : Thread nD τ).loc main_arg7)) (m ((c : Thread nD τ).loc main_arg8)) (m ((c : Thread nD τ).loc main_arg9)) := by
  refine (step2 m (outs1 m) c).trans ?_
  have e : outs1 m 6 main_v29 c = res1 m c := outsOf_6 ..
  rw [e]

theorem res3_eq : res3 m c = Terms.rBlock (F := Ideal) (res1 m c) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg15)) (m ((c : Thread nD τ).loc main_arg16)) := by
  refine (step3 m (outs2 m) c).trans ?_
  have e : outs2 m 8 main_v46 c = res2 m c := outsOf_8 ..
  rw [e, res2_eq]; rfl

theorem res4_eq : res4 m c = Terms.rLin (F := Ideal) (res3 m c) (m ((c : Thread nD τ).loc main_arg1)) (m ((c : Thread nD τ).loc main_arg2)) (m ((c : Thread nD τ).loc main_arg10)) (m ((c : Thread nD τ).loc main_arg11)) (m ((c : Thread nD τ).loc main_arg12)) := by
  refine (step4 m (outs3 m) c).trans ?_
  have e : outs3 m 12 main_v55 c = res3 m c := outsOf_12 ..
  rw [e]

-- Chaining the six stages gives the reference's whole network of the launch contents.
theorem res5_eq : res5 m c = Terms.rAll (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (m ((c : Thread nD τ).loc main_arg17)) (m ((c : Thread nD τ).loc main_arg18)) := by
  refine (step5 m (outs4 m) c).trans ?_
  have e : outs4 m 14 main_v72 c = res4 m c := outsOf_14 ..
  rw [e, res4_eq, res3_eq, res1_eq]; rfl

end Cert.KernelIdeal.Hand

end
-- ==== Proof.KI.RunCond.lean ====
import proofs.«401110_j833223655738_3_alg».proof.Proof.Gen.KernelIdeal.Regions

set_option maxRecDepth 1356

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]
variable (m : (ℓ : Loc nD τ sig) → Buf (Elt F) ℓ)

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in

-- Given one step per region between the run's valuations, the run ends at the last valuation.
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 6) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 7 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE6 : ∀ c : Dev nD, E 6 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1 R2 R3 R4 R5)
    (fun c Q => by
      rewrite [main_chain c, Seg.run_eq_chain,
        show (segs m outs 𝒱₀ L lv E ι pdats R0 R1 R2 R3 R4 R5 c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, .rfl, .rfl, hpre1 c, hpost1 c, hpre2 c, hpost2 c, .rfl, .rfl, hpre3 c, hpost3 c, hpre4 c, hpost4 c, hpre5 c, (hpost5 c).trans (sep_mono .rfl (hE6 c))⟩)
    (hinit := ?_)
    (QY := fun c s => ∀ b ∈ Pipeline.ucRefs τ sig, s.mem (((c : Thread nD τ)).1, b) = V16 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => (((c : Thread nD τ)).1, b)) (V16 m outs c) s')
    isplitl [Hh] <;> iassumption

end Cert.KernelIdeal.Hand

end
-- ==== Proof.KI.Result.lean ====
import proofs.«401110_j833223655738_3_alg».proof.Proof.KI.Regs
import proofs.«401110_j833223655738_3_alg».proof.Proof.KI.RunCond

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

-- The run ends at the last valuation.
set_option backward.isDefEq.respectTransparency.types false in
theorem run_main (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V16 m (outs m) c b) :=
  run_cond m emb₁ () noVar noLev lev0 (fun _ _ => rfl) ρ (outs m) (pdats m) 0 (fun _ => iprop(emp)) u₀
    (by
      iintro Hu; imodintro
      isplitl [Hu]
      · iapply (show (ownU u₀ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (fun _ c => Rest c)
    (by
      refine Pipeline.initEach noLev lev0 fun c => ?_
      iintro ⟨⟨-, Howes, -, Hprng, -⟩, -⟩
      imodintro
      isplitl [Hprng]; · iexists _; iexact Hprng
      iexists ∅; iexact Howes)
    (fun c => by iintro ⟨-, Howes⟩; iexact Howes)
    (reg0 m) (fun c => .rfl) (fun c => by rw [← exit0_eq m c]; exact .rfl)
    (reg1 m) (fun c => by rw [V5_outs m c]; exact .rfl) (fun c => by rw [← exit1_eq m c]; exact .rfl)
    (reg2 m) (fun c => by rw [V7_outs m c]; exact .rfl) (fun c => by rw [← exit2_eq m c]; exact .rfl)
    (reg3 m) (fun c => by rw [V11_outs m c]; exact .rfl) (fun c => by rw [← exit3_eq m c]; exact .rfl)
    (reg4 m) (fun c => by rw [V13_outs m c]; exact .rfl) (fun c => by rw [← exit4_eq m c]; exact .rfl)
    (reg5 m) (fun c => by rw [V15_outs m c]; exact .rfl) (fun c => by rw [← exit5_eq m c]; exact .rfl)

variable (c : Dev nD)

theorem V16_result : V16 m (outs m) c main_v80 = res5 m c := by
  show Function.update _ _ _ _ = _
  rw [Function.update_self, outs_16]

-- The result array ends at region 5's result, and the last valuation still holds every argument as launched.
theorem run_result (ρ : Dev nD → PrngReg) :
    θ_run defs (onTc (τ := τ) (main (F := F))) ⟨m, fun _ => 0, ρ⟩ (fun r => ∀ c : Dev nD,
      r.2.mem ((c.tc : Thread nD τ).loc main_v80) = res5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v80 (by decide))).trans (V16_result m c),
     (h c _ (mem_uc main_arg0 (by decide))).trans (V16_main_arg0 m (outs m) c),
     (h c _ (mem_uc main_arg1 (by decide))).trans (V16_main_arg1 m (outs m) c),
     (h c _ (mem_uc main_arg2 (by decide))).trans (V16_main_arg2 m (outs m) c),
     (h c _ (mem_uc main_arg3 (by decide))).trans (V16_main_arg3 m (outs m) c),
     (h c _ (mem_uc main_arg4 (by decide))).trans (V16_main_arg4 m (outs m) c),
     (h c _ (mem_uc main_arg5 (by decide))).trans (V16_main_arg5 m (outs m) c),
     (h c _ (mem_uc main_arg6 (by decide))).trans (V16_main_arg6 m (outs m) c),
     (h c _ (mem_uc main_arg7 (by decide))).trans (V16_main_arg7 m (outs m) c),
     (h c _ (mem_uc main_arg8 (by decide))).trans (V16_main_arg8 m (outs m) c),
     (h c _ (mem_uc main_arg9 (by decide))).trans (V16_main_arg9 m (outs m) c),
     (h c _ (mem_uc main_arg10 (by decide))).trans (V16_main_arg10 m (outs m) c),
     (h c _ (mem_uc main_arg11 (by decide))).trans (V16_main_arg11 m (outs m) c),
     (h c _ (mem_uc main_arg12 (by decide))).trans (V16_main_arg12 m (outs m) c),
     (h c _ (mem_uc main_arg13 (by decide))).trans (V16_main_arg13 m (outs m) c),
     (h c _ (mem_uc main_arg14 (by decide))).trans (V16_main_arg14 m (outs m) c),
     (h c _ (mem_uc main_arg15 (by decide))).trans (V16_main_arg15 m (outs m) c),
     (h c _ (mem_uc main_arg16 (by decide))).trans (V16_main_arg16 m (outs m) c),
     (h c _ (mem_uc main_arg17 (by decide))).trans (V16_main_arg17 m (outs m) c),
     (h c _ (mem_uc main_arg18 (by decide))).trans (V16_main_arg18 m (outs m) c)⟩) (run_main m ρ)

end Cert.KernelIdeal.Hand

end
-- ==== Proof.RI.Run.lean ====
import proofs.«401110_j833223655738_3_alg».proof.Proof.Gen.ReferenceIdeal
import proofs.«401110_j833223655738_3_alg».proof.Proof.RI.Terms
import Idealize.ShloMosaic.Lib.StableHlo.Run
import Idealize.ShloMosaic.Lib.Pipeline.Frame

noncomputable section

namespace Cert.ReferenceIdeal.HandRun

open Cert.ReferenceIdeal Idealize.ShloMosaic Idealize.ShloMosaic.TcCoe Idealize.SL.Sem Idealize.ShloMosaic.StableHlo
open Facts₀ Facts

variable {F : FTy → Type} [FloatOps F]

-- A reference on a list is among that list's device buffers.
theorem writes_in {τ : Topo} {sig : RefSig} {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

-- Layer 1, aggregation: each edge's source row times its weight, summed into the destination rows.
def segAgg1 : List (HloOp τ sig (Elt F)) :=
  [ unary main_arg1 main_v0 (extractStridedSlice S1x800000 ![0, 0] · slices_S2x800000_S1x800000_0_0),
    reshape main_v0 main_v1 rfl shapeCasts_S1x800000_S800000,
    nullary main_c (constantI S_ 32 0#32),
    unary main_c main_v2 (broadcastInDim S800000 ![] bcast_S_S800000),
    binary main_v1 main_v2 main_v3 (cmpi .slt),
    nullary main_c_0 (constantI S_ 32 50000#32),
    unary main_c_0 main_v4 (broadcastInDim S800000 ![] bcast_S_S800000),
    binary main_v1 main_v4 main_v5 addi,
    ternary main_v3 main_v5 main_v1 main_v6 select,
    unary main_v6 main_v7 (broadcastInDim S800000x1 ![0] bcast_S800000_S800000x1_0),
    binary main_arg0 main_v7 main_v8 (fun x i => Host.gather gather_S50000x64_S800000x1_S800000x64_1_0_n_n_0_1_164 x i),
    unary main_arg2 main_v9 (broadcastInDim S800000x1 ![0] bcast_S800000_S800000x1_0),
    unary main_v9 main_v10 (broadcastInDim S800000x64 ![0, 1] bcast_S800000x1_S800000x64_0_1),
    binary main_v8 main_v10 main_v11 mulf,
    unary main_arg1 main_v12 (extractStridedSlice S1x800000 ![1, 0] · slices_S2x800000_S1x800000_1_0),
    reshape main_v12 main_v13 rfl shapeCasts_S1x800000_S800000,
    nullary main_cst (constant S_ .f32 0x00000000#32),
    unary main_cst main_v14 (broadcastInDim S50000x64 ![] bcast_S_S50000x64),
    unary main_v13 main_v15 (broadcastInDim S800000x1 ![0] bcast_S800000_S800000x1_0),
    ternary main_v14 main_v15 main_v11 main_v16 (fun x i u => Host.scatterAdd scatter_S50000x64_S800000x1_S800000x64_1_0_0_1 x i u) ]

def segAgg1_w : List (Ref sig .tc) :=
  [ main_v0, main_v1, main_c, main_v2, main_v3, main_c_0,
    main_v4, main_v5, main_v6, main_v7, main_v8, main_v9,
    main_v10, main_v11, main_v12, main_v13, main_cst, main_v14,
    main_v15, main_v16 ]

-- A buffer outside the stage's written list keeps its contents: every operation writes one buffer of the list.
theorem segAgg1_keep (V : Valuation τ sig (Elt F)) {r : Ref sig .tc} (hr : r ∉ segAgg1_w) :
    after segAgg1 V (no_index (Proc.devRef .tc r)) = V (Proc.devRef .tc r) :=
  after_of_writes_sub segAgg1 V (by and_intros <;> exact writes_in (by decide)) hr

-- The stage's last buffer holds the stage's function of the buffers it read.
theorem segAgg1_out (V : Valuation τ sig (Elt F)) :
    after segAgg1 V (no_index (Proc.devRef .tc main_v16))
      = Terms.rAgg (V (Proc.devRef .tc main_arg1)) (V (Proc.devRef .tc main_arg2)) (V (Proc.devRef .tc main_arg0)) := by
  unfold segAgg1
  after_results_simp
  rfl

-- Layer 1, the linear part: the two matrix products, their sum, the bias.
def segConv1 : List (HloOp τ sig (Elt F)) :=
  [ binary main_arg0 main_arg4 main_v17 (fun l r => Host.dotGeneral dot_S50000x64_S64x64_S50000x64_1_0_0_1_n_n none l r),
    binary main_v16 main_arg5 main_v18 (fun l r => Host.dotGeneral dot_S50000x64_S64x64_S50000x64_1_0_0_1_n_n none l r),
    binary main_v17 main_v18 main_v19 addf,
    unary main_arg6 main_v20 (broadcastInDim S1x64 ![1] bcast_S64_S1x64_1),
    unary main_v20 main_v21 (broadcastInDim S50000x64 ![0, 1] bcast_S1x64_S50000x64_0_1),
    binary main_v19 main_v21 main_v22 addf ]

def segConv1_w : List (Ref sig .tc) :=
  [ main_v17, main_v18, main_v19, main_v20, main_v21, main_v22 ]

theorem segConv1_keep (V : Valuation τ sig (Elt F)) {r : Ref sig .tc} (hr : r ∉ segConv1_w) :
    after segConv1 V (no_index (Proc.devRef .tc r)) = V (Proc.devRef .tc r) :=
  after_of_writes_sub segConv1 V (by and_intros <;> exact writes_in (by decide)) hr

theorem segConv1_out (V : Valuation τ sig (Elt F)) :
    after segConv1 V (no_index (Proc.devRef .tc main_v22))
      = Terms.rConv (V (Proc.devRef .tc main_arg0)) (V (Proc.devRef .tc main_v16)) (V (Proc.devRef .tc main_arg4)) (V (Proc.devRef .tc main_arg5)) (V (Proc.devRef .tc main_arg6)) := by
  unfold segConv1
  after_results_simp
  rfl

-- Layer 1, the column means.
def segMean1 : List (HloOp τ sig (Elt F)) :=
  [ nullary main_cst_1 (constant S_ .f32 0x00000000#32),
    binary main_v22 main_cst_1 main_v23 (fun x v => Host.reduceAdd x v reducesTo_S50000x64_S64_d0 h_S_),
    nullary main_cst_2 (constant S_ .f32 0x47435000#32),
    unary main_cst_2 main_v24 (broadcastInDim S64 ![] bcast_S_S64),
    binary main_v23 main_v24 main_v25 Host.divf ]

def segMean1_w : List (Ref sig .tc) :=
  [ main_cst_1, main_v23, main_cst_2, main_v24, main_v25 ]

theorem segMean1_keep (V : Valuation τ sig (Elt F)) {r : Ref sig .tc} (hr : r ∉ segMean1_w) :
    after segMean1 V (no_index (Proc.devRef .tc r)) = V (Proc.devRef .tc r) :=
  after_of_writes_sub segMean1 V (by and_intros <;> exact writes_in (by decide)) hr

theorem segMean1_out (V : Valuation τ sig (Elt F)) :
    after segMean1 V (no_index (Proc.devRef .tc main_v25))
      = Terms.rMean (V (Proc.devRef .tc main_v22)) := by
  unfold segMean1
  after_results_simp
  rfl

-- Layer 1, the column variances.
def segVar1 : List (HloOp τ sig (Elt F)) :=
  [ nullary main_c_3 (constantI S_ 32 0#32),
    TRef.nullary main_call0.cst (constant S_ .f32 0x00000000#32),
    TRef.binary (.of main_v22 : TRef sig ⟨S50000x64, .f32⟩) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v22 : TRef sig ⟨S50000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

def segVar1_w : List (Ref sig .tc) :=
  [ main_c_3, main_call0.cst.ref, main_call0.v0.ref, main_call0.v1.ref, main_call0.cst_0.ref, main_call0.v2.ref,
    main_call0.v3.ref, main_call0.v4.ref, main_call0.v5.ref, main_call0.v6.ref, main_call0.v7.ref, main_call0.cst_1.ref,
    main_call0.v8.ref, main_call0.cst_2.ref, main_call0.v9.ref, main_call0.v10.ref, main_call0.v11.ref, main_call0.cst_3.ref,
    main_call0.v12.ref, main_call0.cst_4.ref, main_call0.call0.v0.ref, main_call0.call0.v1.ref, main_call0.call0.v2.ref ]

theorem segVar1_keep (V : Valuation τ sig (Elt F)) {r : Ref sig .tc} (hr : r ∉ segVar1_w) :
    after segVar1 V (no_index (Proc.devRef .tc r)) = V (Proc.devRef .tc r) :=
  after_of_writes_sub segVar1 V (by and_intros <;> exact writes_in (by decide)) hr

theorem segVar1_out (V : Valuation τ sig (Elt F)) :
    after segVar1 V (no_index (Proc.devRef .tc main_v26))
      = Terms.rVar (V (Proc.devRef .tc main_v22)) := by
  unfold segVar1
  after_results_simp
  rfl

-- Layer 1, normalisation, scale and shift, positive part.
def segNorm1 : List (HloOp τ sig (Elt F)) :=
  [ unary main_v25 main_v27 (broadcastInDim S1x64 ![1] bcast_S64_S1x64_1),
    unary main_v27 main_v28 (broadcastInDim S50000x64 ![0, 1] bcast_S1x64_S50000x64_0_1),
    binary main_v22 main_v28 main_v29 subf,
    unary main_arg13 main_v30 (broadcastInDim S1x64 ![1] bcast_S64_S1x64_1),
    unary main_v30 main_v31 (broadcastInDim S50000x64 ![0, 1] bcast_S1x64_S50000x64_0_1),
    binary main_v31 main_v29 main_v32 mulf,
    nullary main_cst_4 (constant S_ .f32 0x3727C5AC#32),
    unary main_cst_4 main_v33 (broadcastInDim S64 ![] bcast_S_S64),
    binary main_v26 main_v33 main_v34 addf,
    unary main_v34 main_v35 Host.rsqrt,
    unary main_v35 main_v36 (broadcastInDim S1x64 ![1] bcast_S64_S1x64_1),
    unary main_v36 main_v37 (broadcastInDim S50000x64 ![0, 1] bcast_S1x64_S50000x64_0_1),
    binary main_v32 main_v37 main_v38 mulf,
    unary main_arg14 main_v39 (broadcastInDim S1x64 ![1] bcast_S64_S1x64_1),
    unary main_v39 main_v40 (broadcastInDim S50000x64 ![0, 1] bcast_S1x64_S50000x64_0_1),
    binary main_v38 main_v40 main_v41 addf,
    TRef.nullary main_call1.cst (constant S_ .f32 0x00000000#32),
    TRef.unary main_call1.cst main_call1.v0 (broadcastInDim S50000x64 ![] bcast_S_S50000x64),
    TRef.binary (.of main_v41 : TRef sig ⟨S50000x64, .f32⟩) main_call1.v0 main_call1.v1 maximumf ]

def segNorm1_w : List (Ref sig .tc) :=
  [ main_v27, main_v28, main_v29, main_v30, main_v31, main_v32,
    main_cst_4, main_v33, main_v34, main_v35, main_v36, main_v37,
    main_v38, main_v39, main_v40, main_v41, main_call1.cst.ref, main_call1.v0.ref,
    main_call1.v1.ref ]

theorem segNorm1_keep (V : Valuation τ sig (Elt F)) {r : Ref sig .tc} (hr : r ∉ segNorm1_w) :
    after segNorm1 V (no_index (Proc.devRef .tc r)) = V (Proc.devRef .tc r) :=
  after_of_writes_sub segNorm1 V (by and_intros <;> exact writes_in (by decide)) hr

theorem segNorm1_out (V : Valuation τ sig (Elt F)) :
    after segNorm1 V (no_index (Proc.devRef .tc main_v42))
      = Terms.rBnRelu (V (Proc.devRef .tc main_v22)) (V (Proc.devRef .tc main_v25)) (V (Proc.devRef .tc main_v26)) (V (Proc.devRef .tc main_arg13)) (V (Proc.devRef .tc main_arg14)) := by
  unfold segNorm1
  after_results_simp
  rfl

-- Layer 2, aggregation.
def segAgg2 : List (HloOp τ sig (Elt F)) :=
  [ unary main_arg1 main_v43 (extractStridedSlice S1x800000 ![0, 0] · slices_S2x800000_S1x800000_0_0),
    reshape main_v43 main_v44 rfl shapeCasts_S1x800000_S800000,
    nullary main_c_5 (constantI S_ 32 0#32),
    unary main_c_5 main_v45 (broadcastInDim S800000 ![] bcast_S_S800000),
    binary main_v44 main_v45 main_v46 (cmpi .slt),
    nullary main_c_6 (constantI S_ 32 50000#32),
    unary main_c_6 main_v47 (broadcastInDim S800000 ![] bcast_S_S800000),
    binary main_v44 main_v47 main_v48 addi,
    ternary main_v46 main_v48 main_v44 main_v49 select,
    unary main_v49 main_v50 (broadcastInDim S800000x1 ![0] bcast_S800000_S800000x1_0),
    binary main_v42 main_v50 main_v51 (fun x i => Host.gather gather_S50000x64_S800000x1_S800000x64_1_0_n_n_0_1_164 x i),
    unary main_arg2 main_v52 (broadcastInDim S800000x1 ![0] bcast_S800000_S800000x1_0),
    unary main_v52 main_v53 (broadcastInDim S800000x64 ![0, 1] bcast_S800000x1_S800000x64_0_1),
    binary main_v51 main_v53 main_v54 mulf,
    unary main_arg1 main_v55 (extractStridedSlice S1x800000 ![1, 0] · slices_S2x800000_S1x800000_1_0),
    reshape main_v55 main_v56 rfl shapeCasts_S1x800000_S800000,
    nullary main_cst_7 (constant S_ .f32 0x00000000#32),
    unary main_cst_7 main_v57 (broadcastInDim S50000x64 ![] bcast_S_S50000x64),
    unary main_v56 main_v58 (broadcastInDim S800000x1 ![0] bcast_S800000_S800000x1_0),
    ternary main_v57 main_v58 main_v54 main_v59 (fun x i u => Host.scatterAdd scatter_S50000x64_S800000x1_S800000x64_1_0_0_1 x i u) ]

def segAgg2_w : List (Ref sig .tc) :=
  [ main_v43, main_v44, main_c_5, main_v45, main_v46, main_c_6,
    main_v47, main_v48, main_v49, main_v50, main_v51, main_v52,
    main_v53, main_v54, main_v55, main_v56, main_cst_7, main_v57,
    main_v58, main_v59 ]

theorem segAgg2_keep (V : Valuation τ sig (Elt F)) {r : Ref sig .tc} (hr : r ∉ segAgg2_w) :
    after segAgg2 V (no_index (Proc.devRef .tc r)) = V (Proc.devRef .tc r) :=
  after_of_writes_sub segAgg2 V (by and_intros <;> exact writes_in (by decide)) hr

theorem segAgg2_out (V : Valuation τ sig (Elt F)) :
    after segAgg2 V (no_index (Proc.devRef .tc main_v59))
      = Terms.rAgg (V (Proc.devRef .tc main_arg1)) (V (Proc.devRef .tc main_arg2)) (V (Proc.devRef .tc main_v42)) := by
  unfold segAgg2
  after_results_simp
  rfl

-- Layer 2, the linear part.
def segConv2 : List (HloOp τ sig (Elt F)) :=
  [ binary main_v42 main_arg7 main_v60 (fun l r => Host.dotGeneral dot_S50000x64_S64x64_S50000x64_1_0_0_1_n_n none l r),
    binary main_v59 main_arg8 main_v61 (fun l r => Host.dotGeneral dot_S50000x64_S64x64_S50000x64_1_0_0_1_n_n none l r),
    binary main_v60 main_v61 main_v62 addf,
    unary main_arg9 main_v63 (broadcastInDim S1x64 ![1] bcast_S64_S1x64_1),
    unary main_v63 main_v64 (broadcastInDim S50000x64 ![0, 1] bcast_S1x64_S50000x64_0_1),
    binary main_v62 main_v64 main_v65 addf ]

def segConv2_w : List (Ref sig .tc) :=
  [ main_v60, main_v61, main_v62, main_v63, main_v64, main_v65 ]

theorem segConv2_keep (V : Valuation τ sig (Elt F)) {r : Ref sig .tc} (hr : r ∉ segConv2_w) :
    after segConv2 V (no_index (Proc.devRef .tc r)) = V (Proc.devRef .tc r) :=
  after_of_writes_sub segConv2 V (by and_intros <;> exact writes_in (by decide)) hr

theorem segConv2_out (V : Valuation τ sig (Elt F)) :
    after segConv2 V (no_index (Proc.devRef .tc main_v65))
      = Terms.rConv (V (Proc.devRef .tc main_v42)) (V (Proc.devRef .tc main_v59)) (V (Proc.devRef .tc main_arg7)) (V (Proc.devRef .tc main_arg8)) (V (Proc.devRef .tc main_arg9)) := by
  unfold segConv2
  after_results_simp
  rfl

-- Layer 2, the column means.
def segMean2 : List (HloOp τ sig (Elt F)) :=
  [ nullary main_cst_8 (constant S_ .f32 0x00000000#32),
    binary main_v65 main_cst_8 main_v66 (fun x v => Host.reduceAdd x v reducesTo_S50000x64_S64_d0 h_S_),
    nullary main_cst_9 (constant S_ .f32 0x47435000#32),
    unary main_cst_9 main_v67 (broadcastInDim S64 ![] bcast_S_S64),
    binary main_v66 main_v67 main_v68 Host.divf ]

def segMean2_w : List (Ref sig .tc) :=
  [ main_cst_8, main_v66, main_cst_9, main_v67, main_v68 ]

theorem segMean2_keep (V : Valuation τ sig (Elt F)) {r : Ref sig .tc} (hr : r ∉ segMean2_w) :
    after segMean2 V (no_index (Proc.devRef .tc r)) = V (Proc.devRef .tc r) :=
  after_of_writes_sub segMean2 V (by and_intros <;> exact writes_in (by decide)) hr

theorem segMean2_out (V : Valuation τ sig (Elt F)) :
    after segMean2 V (no_index (Proc.devRef .tc main_v68))
      = Terms.rMean (V (Proc.devRef .tc main_v65)) := by
  unfold segMean2
  after_results_simp
  rfl

-- Layer 2, the column variances.
def segVar2 : List (HloOp τ sig (Elt F)) :=
  [ nullary main_c_10 (constantI S_ 32 0#32),
    TRef.nullary main_call2.cst (constant S_ .f32 0x00000000#32),
    TRef.binary (.of main_v65 : TRef sig ⟨S50000x64, .f32⟩) main_call2.cst main_call2.v0 (fun x v => Host.reduceAdd x v reducesTo_S50000x64_S64_d0 h_S_),
    TRef.unary main_call2.v0 main_call2.v1 (broadcastInDim S1x64 ![1] bcast_S64_S1x64_1),
    TRef.nullary main_call2.cst_0 (constant S_ .f32 0x47435000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S50000x64 ![0, 1] bcast_S1x64_S50000x64_0_1),
    TRef.binary (.of main_v65 : TRef sig ⟨S50000x64, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b) ]

def segVar2_w : List (Ref sig .tc) :=
  [ main_c_10, main_call2.cst.ref, main_call2.v0.ref, main_call2.v1.ref, main_call2.cst_0.ref, main_call2.v2.ref,
    main_call2.v3.ref, main_call2.v4.ref, main_call2.v5.ref, main_call2.v6.ref, main_call2.v7.ref, main_call2.cst_1.ref,
    main_call2.v8.ref, main_call2.cst_2.ref, main_call2.v9.ref, main_call2.v10.ref, main_call2.v11.ref, main_call2.cst_3.ref,
    main_call2.v12.ref, main_call2.cst_4.ref, main_call2.call0.v0.ref, main_call2.call0.v1.ref, main_call2.call0.v2.ref ]

theorem segVar2_keep (V : Valuation τ sig (Elt F)) {r : Ref sig .tc} (hr : r ∉ segVar2_w) :
    after segVar2 V (no_index (Proc.devRef .tc r)) = V (Proc.devRef .tc r) :=
  after_of_writes_sub segVar2 V (by and_intros <;> exact writes_in (by decide)) hr

theorem segVar2_out (V : Valuation τ sig (Elt F)) :
    after segVar2 V (no_index (Proc.devRef .tc main_v69))
      = Terms.rVar (V (Proc.devRef .tc main_v65)) := by
  unfold segVar2
  after_results_simp
  rfl

-- Layer 2, normalisation, scale and shift, positive part.
def segNorm2 : List (HloOp τ sig (Elt F)) :=
  [ unary main_v68 main_v70 (broadcastInDim S1x64 ![1] bcast_S64_S1x64_1),
    unary main_v70 main_v71 (broadcastInDim S50000x64 ![0, 1] bcast_S1x64_S50000x64_0_1),
    binary main_v65 main_v71 main_v72 subf,
    unary main_arg15 main_v73 (broadcastInDim S1x64 ![1] bcast_S64_S1x64_1),
    unary main_v73 main_v74 (broadcastInDim S50000x64 ![0, 1] bcast_S1x64_S50000x64_0_1),
    binary main_v74 main_v72 main_v75 mulf,
    nullary main_cst_11 (constant S_ .f32 0x3727C5AC#32),
    unary main_cst_11 main_v76 (broadcastInDim S64 ![] bcast_S_S64),
    binary main_v69 main_v76 main_v77 addf,
    unary main_v77 main_v78 Host.rsqrt,
    unary main_v78 main_v79 (broadcastInDim S1x64 ![1] bcast_S64_S1x64_1),
    unary main_v79 main_v80 (broadcastInDim S50000x64 ![0, 1] bcast_S1x64_S50000x64_0_1),
    binary main_v75 main_v80 main_v81 mulf,
    unary main_arg16 main_v82 (broadcastInDim S1x64 ![1] bcast_S64_S1x64_1),
    unary main_v82 main_v83 (broadcastInDim S50000x64 ![0, 1] bcast_S1x64_S50000x64_0_1),
    binary main_v81 main_v83 main_v84 addf,
    TRef.nullary main_call3.cst (constant S_ .f32 0x00000000#32),
    TRef.unary main_call3.cst main_call3.v0 (broadcastInDim S50000x64 ![] bcast_S_S50000x64),
    TRef.binary (.of main_v84 : TRef sig ⟨S50000x64, .f32⟩) main_call3.v0 main_call3.v1 maximumf ]

def segNorm2_w : List (Ref sig .tc) :=
  [ main_v70, main_v71, main_v72, main_v73, main_v74, main_v75,
    main_cst_11, main_v76, main_v77, main_v78, main_v79, main_v80,
    main_v81, main_v82, main_v83, main_v84, main_call3.cst.ref, main_call3.v0.ref,
    main_call3.v1.ref ]

theorem segNorm2_keep (V : Valuation τ sig (Elt F)) {r : Ref sig .tc} (hr : r ∉ segNorm2_w) :
    after segNorm2 V (no_index (Proc.devRef .tc r)) = V (Proc.devRef .tc r) :=
  after_of_writes_sub segNorm2 V (by and_intros <;> exact writes_in (by decide)) hr

theorem segNorm2_out (V : Valuation τ sig (Elt F)) :
    after segNorm2 V (no_index (Proc.devRef .tc main_v85))
      = Terms.rBnRelu (V (Proc.devRef .tc main_v65)) (V (Proc.devRef .tc main_v68)) (V (Proc.devRef .tc main_v69)) (V (Proc.devRef .tc main_arg15)) (V (Proc.devRef .tc main_arg16)) := by
  unfold segNorm2
  after_results_simp
  rfl

-- Layer 3, aggregation.
def segAgg3 : List (HloOp τ sig (Elt F)) :=
  [ unary main_arg1 main_v86 (extractStridedSlice S1x800000 ![0, 0] · slices_S2x800000_S1x800000_0_0),
    reshape main_v86 main_v87 rfl shapeCasts_S1x800000_S800000,
    nullary main_c_12 (constantI S_ 32 0#32),
    unary main_c_12 main_v88 (broadcastInDim S800000 ![] bcast_S_S800000),
    binary main_v87 main_v88 main_v89 (cmpi .slt),
    nullary main_c_13 (constantI S_ 32 50000#32),
    unary main_c_13 main_v90 (broadcastInDim S800000 ![] bcast_S_S800000),
    binary main_v87 main_v90 main_v91 addi,
    ternary main_v89 main_v91 main_v87 main_v92 select,
    unary main_v92 main_v93 (broadcastInDim S800000x1 ![0] bcast_S800000_S800000x1_0),
    binary main_v85 main_v93 main_v94 (fun x i => Host.gather gather_S50000x64_S800000x1_S800000x64_1_0_n_n_0_1_164 x i),
    unary main_arg2 main_v95 (broadcastInDim S800000x1 ![0] bcast_S800000_S800000x1_0),
    unary main_v95 main_v96 (broadcastInDim S800000x64 ![0, 1] bcast_S800000x1_S800000x64_0_1),
    binary main_v94 main_v96 main_v97 mulf,
    unary main_arg1 main_v98 (extractStridedSlice S1x800000 ![1, 0] · slices_S2x800000_S1x800000_1_0),
    reshape main_v98 main_v99 rfl shapeCasts_S1x800000_S800000,
    nullary main_cst_14 (constant S_ .f32 0x00000000#32),
    unary main_cst_14 main_v100 (broadcastInDim S50000x64 ![] bcast_S_S50000x64),
    unary main_v99 main_v101 (broadcastInDim S800000x1 ![0] bcast_S800000_S800000x1_0),
    ternary main_v100 main_v101 main_v97 main_v102 (fun x i u => Host.scatterAdd scatter_S50000x64_S800000x1_S800000x64_1_0_0_1 x i u) ]

def segAgg3_w : List (Ref sig .tc) :=
  [ main_v86, main_v87, main_c_12, main_v88, main_v89, main_c_13,
    main_v90, main_v91, main_v92, main_v93, main_v94, main_v95,
    main_v96, main_v97, main_v98, main_v99, main_cst_14, main_v100,
    main_v101, main_v102 ]

theorem segAgg3_keep (V : Valuation τ sig (Elt F)) {r : Ref sig .tc} (hr : r ∉ segAgg3_w) :
    after segAgg3 V (no_index (Proc.devRef .tc r)) = V (Proc.devRef .tc r) :=
  after_of_writes_sub segAgg3 V (by and_intros <;> exact writes_in (by decide)) hr

theorem segAgg3_out (V : Valuation τ sig (Elt F)) :
    after segAgg3 V (no_index (Proc.devRef .tc main_v102))
      = Terms.rAgg (V (Proc.devRef .tc main_arg1)) (V (Proc.devRef .tc main_arg2)) (V (Proc.devRef .tc main_v85)) := by
  unfold segAgg3
  after_results_simp
  rfl

-- Layer 3, the linear part.
def segConv3 : List (HloOp τ sig (Elt F)) :=
  [ binary main_v85 main_arg10 main_v103 (fun l r => Host.dotGeneral dot_S50000x64_S64x64_S50000x64_1_0_0_1_n_n none l r),
    binary main_v102 main_arg11 main_v104 (fun l r => Host.dotGeneral dot_S50000x64_S64x64_S50000x64_1_0_0_1_n_n none l r),
    binary main_v103 main_v104 main_v105 addf,
    unary main_arg12 main_v106 (broadcastInDim S1x64 ![1] bcast_S64_S1x64_1),
    unary main_v106 main_v107 (broadcastInDim S50000x64 ![0, 1] bcast_S1x64_S50000x64_0_1),
    binary main_v105 main_v107 main_v108 addf ]

def segConv3_w : List (Ref sig .tc) :=
  [ main_v103, main_v104, main_v105, main_v106, main_v107, main_v108 ]

theorem segConv3_keep (V : Valuation τ sig (Elt F)) {r : Ref sig .tc} (hr : r ∉ segConv3_w) :
    after segConv3 V (no_index (Proc.devRef .tc r)) = V (Proc.devRef .tc r) :=
  after_of_writes_sub segConv3 V (by and_intros <;> exact writes_in (by decide)) hr

theorem segConv3_out (V : Valuation τ sig (Elt F)) :
    after segConv3 V (no_index (Proc.devRef .tc main_v108))
      = Terms.rConv (V (Proc.devRef .tc main_v85)) (V (Proc.devRef .tc main_v102)) (V (Proc.devRef .tc main_arg10)) (V (Proc.devRef .tc main_arg11)) (V (Proc.devRef .tc main_arg12)) := by
  unfold segConv3
  after_results_simp
  rfl

-- Pooling: sums and counts per graph, their quotient, the final linear map.
def segPool : List (HloOp τ sig (Elt F)) :=
  [ nullary main_cst_15 (constant S_ .f32 0x00000000#32),
    unary main_cst_15 main_v109 (broadcastInDim S256x64 ![] bcast_S_S256x64),
    unary main_arg3 main_v110 (broadcastInDim S50000x1 ![0] bcast_S50000_S50000x1_0),
    ternary main_v109 main_v110 main_v108 main_v111 (fun x i u => Host.scatterAdd scatter_S256x64_S50000x1_S50000x64_1_0_0_1 x i u),
    nullary main_cst_16 (constant S_ .f32 0x3F800000#32),
    unary main_cst_16 main_v112 (broadcastInDim S50000 ![] bcast_S_S50000),
    nullary main_cst_17 (constant S_ .f32 0x00000000#32),
    unary main_cst_17 main_v113 (broadcastInDim S256 ![] bcast_S_S256),
    unary main_arg3 main_v114 (broadcastInDim S50000x1 ![0] bcast_S50000_S50000x1_0),
    ternary main_v113 main_v114 main_v112 main_v115 (fun x i u => Host.scatterAdd scatter_S256_S50000x1_S50000_n_0_0_1 x i u),
    nullary main_cst_18 (constant S_ .f32 0x3F800000#32),
    unary main_cst_18 main_v116 (broadcastInDim S256 ![] bcast_S_S256),
    binary main_v115 main_v116 main_v117 maximumf,
    unary main_v117 main_v118 (broadcastInDim S256x1 ![0] bcast_S256_S256x1_0),
    unary main_v118 main_v119 (broadcastInDim S256x64 ![0, 1] bcast_S256x1_S256x64_0_1),
    binary main_v111 main_v119 main_v120 Host.divf,
    binary main_v120 main_arg17 main_v121 (fun l r => Host.dotGeneral dot_S256x64_S64x2_S256x2_1_0_0_1_n_n none l r),
    unary main_arg18 main_v122 (broadcastInDim S1x2 ![1] bcast_S2_S1x2_1),
    unary main_v122 main_v123 (broadcastInDim S256x2 ![0, 1] bcast_S1x2_S256x2_0_1),
    binary main_v121 main_v123 main_v124 addf ]

def segPool_w : List (Ref sig .tc) :=
  [ main_cst_15, main_v109, main_v110, main_v111, main_cst_16, main_v112,
    main_cst_17, main_v113, main_v114, main_v115, main_cst_18, main_v116,
    main_v117, main_v118, main_v119, main_v120, main_v121, main_v122,
    main_v123, main_v124 ]

theorem segPool_keep (V : Valuation τ sig (Elt F)) {r : Ref sig .tc} (hr : r ∉ segPool_w) :
    after segPool V (no_index (Proc.devRef .tc r)) = V (Proc.devRef .tc r) :=
  after_of_writes_sub segPool V (by and_intros <;> exact writes_in (by decide)) hr

theorem segPool_out (V : Valuation τ sig (Elt F)) :
    after segPool V (no_index (Proc.devRef .tc main_v124))
      = Terms.rPool (V (Proc.devRef .tc main_v108)) (V (Proc.devRef .tc main_arg3)) (V (Proc.devRef .tc main_arg17)) (V (Proc.devRef .tc main_arg18)) := by
  unfold segPool
  after_results_simp
  rfl

-- The whole program: the stages in order.
def ops : List (HloOp τ sig (Elt F)) :=
  segAgg1 ++ segConv1 ++ segMean1 ++ segVar1 ++ segNorm1 ++ segAgg2 ++ segConv2 ++ segMean2 ++ segVar2 ++ segNorm2 ++ segAgg3 ++ segConv3 ++ segPool

set_option maxRecDepth 65536 in
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

-- Every operation touches TensorCore buffers only: a property of a concatenation holds of each part.
theorem ops_bufs : (ops (F := F)).Forall fun op => op.bufs ⊆ tcRefs τ sig := by
  simp only [ops, List.forall_append]
  and_intros <;> simp only [List.Forall, ↓nullary_bufs_sub, ↓unary_bufs_sub, ↓binary_bufs_sub, ↓ternary_bufs_sub, ↓reshape_bufs_sub]

theorem ops_fresh : (ops (F := F)).Forall fun op => op.fresh = ∅ := by
  simp only [ops, List.forall_append]
  and_intros <;> rfl

-- Each stage's result, read back through the later stages (which do not write it), composes to the whole network.
theorem out_eq (V : Valuation τ sig (Elt F)) :
    after ops V (Proc.devRef .tc main_v124)
      = Terms.rAll (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  unfold ops
  simp (disch := decide) only [after_append, segAgg1_out, segAgg1_keep, segConv1_out, segConv1_keep, segMean1_out, segMean1_keep, segVar1_out, segVar1_keep, segNorm1_out, segNorm1_keep, segAgg2_out, segAgg2_keep, segConv2_out, segConv2_keep, segMean2_out, segMean2_keep, segVar2_out, segVar2_keep, segNorm2_out, segNorm2_keep, segAgg3_out, segAgg3_keep, segConv3_out, segConv3_keep, segPool_out, segPool_keep]
  rfl

-- A buffer no stage writes holds at the end what it held at the start.
theorem arg_eq (V : Valuation τ sig (Elt F)) {r : Ref sig .tc}
    (hr : r ∉ segAgg1_w ++ segConv1_w ++ segMean1_w ++ segVar1_w ++ segNorm1_w ++ segAgg2_w ++ segConv2_w ++ segMean2_w ++ segVar2_w ++ segNorm2_w ++ segAgg3_w ++ segConv3_w ++ segPool_w) :
    after ops V (Proc.devRef .tc r) = V (Proc.devRef .tc r) := by
  simp only [List.mem_append, not_or] at hr
  simp only [ops, after_append, segAgg1_keep, segConv1_keep, segMean1_keep, segVar1_keep, segNorm1_keep, segAgg2_keep, segConv2_keep, segMean2_keep, segVar2_keep, segNorm2_keep, segAgg3_keep, segConv3_keep, segPool_keep, hr, not_false_eq_true]

-- Every fair execution ends with the network's value in the result buffer and the arguments unchanged.
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v124) = Terms.rAll (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => by
      refine ⟨(h c _).trans (out_eq _), ?_⟩
      and_intros <;> exact (h c _).trans (arg_eq _ (by decide)))
    (run_seq scopedRefs_eq scopedSems_eq defs main (fun _ => ops) main_eq (fun _ => ops_bufs) m ρ
      (fun _ => List.forall_iff_forall_mem.mp ops_fresh))

end Cert.ReferenceIdeal.HandRun

end
-- ==== Proof.lean ====
/- A three-layer graph convolution with batch normalisation and mean pooling, tiled over ten row blocks,
   against the plain network. At the ideal instance a tile's matrix product is the rows of the whole product and the
   membership product summed over the tiles is the per-graph scatter-add, since 0·x = 0, 1·x = x and addition is
   commutative and associative on the extended reals; no finiteness is used. -/
import proofs.«401110_j833223655738_3_alg».proof.Defs
import proofs.«401110_j833223655738_3_alg».proof.Proof.Gen.Kernel
import proofs.«401110_j833223655738_3_alg».proof.Proof.Gen.KernelIdeal
import proofs.«401110_j833223655738_3_alg».proof.Proof.Gen.ReferenceIdeal
import proofs.«401110_j833223655738_3_alg».proof.Proof.Gen.Pre_finite_inputs
import proofs.«401110_j833223655738_3_alg».proof.Proof.K.Frame
import proofs.«401110_j833223655738_3_alg».proof.Proof.KI.Chain
import proofs.«401110_j833223655738_3_alg».proof.Proof.KI.Result
import proofs.«401110_j833223655738_3_alg».proof.Proof.RI.Run
import Idealize.ShloMosaic.PureOps.BitExact
import Idealize.ShloMosaic.PureOps.Ideal

noncomputable section

namespace Cert.Proof

open Idealize.ShloMosaic Idealize.SL.Sem

theorem frame_kernel_ideal : Cert.frame_KernelIdeal := fun m ρ _ =>
  (θ_run Cert.KernelIdeal.defs _ _).mono (fun _ h c => (h c).2) (Cert.KernelIdeal.Hand.run_result m ρ)

theorem frame_reference_ideal : Cert.frame_ReferenceIdeal := fun m ρ _ =>
  (θ_run Cert.ReferenceIdeal.defs _ _).mono (fun _ h c => (h c).2) (Cert.ReferenceIdeal.HandRun.run (F := Ideal) m ρ)

-- Both runs end with the whole network of the arguments in the result array, and the arguments agree.
theorem algebraic : Cert.algebraic_KernelIdeal_ReferenceIdeal := by
  intro m ρ m' ρ' _ hagree
  refine ⟨fun c => Cert.KernelIdeal.Hand.res5 m c, Cert.KernelIdeal.Hand.run_result m ρ, ?_⟩
  refine (θ_run Cert.ReferenceIdeal.defs _ _).mono (fun _ h c => ⟨(h c).1.trans ?_, (h c).2⟩)
    (Cert.ReferenceIdeal.HandRun.run (F := Ideal) m' ρ')
  show _ = Cert.KernelIdeal.Hand.res5 m c
  obtain ⟨h0, h1, h2, h3, h4, h5, h6, h7, h8, h9, h10, h11, h12, h13, h14, h15, h16, h17, h18⟩ := hagree c
  rw [Cert.KernelIdeal.Hand.res5_eq m c, h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    Cert.Kernel.Hand.frame, frame_kernel_ideal, frame_reference_ideal, trivial, algebraic⟩

end Cert.Proof

end
